-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v7_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S15x1024 : Shape := ⟨2, ![15, 1024]⟩
abbrev S50257x1024 : Shape := ⟨2, ![50257, 1024]⟩
abbrev S15x2048 : Shape := ⟨2, ![15, 2048]⟩
abbrev S15 : Shape := ⟨1, ![15]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S15x1024 : S_.BroadcastsInDim S15x1024 (![] : Fin 0 → Fin S15x1024.rank)
  reducesTo_S15x1024_S_d0_1 : S15x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S15x2048 : S_.BroadcastsInDim S15x2048 (![] : Fin 0 → Fin S15x2048.rank)
  reducesTo_S15x2048_S_d0_1 : S15x2048.ReducesTo [0, 1] S_
  bcast_S_S15 : S_.BroadcastsInDim S15 (![] : Fin 0 → Fin S15.rank)
  reducesTo_S15_S_d0 : S15.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg0 : IVec S1 32) (main_v67 : IVec S_ 1) : IVec S_ 1 :=
  let main_c_26 : IVec S_ 32 := constantI S_ 32 50257#32
  let main_v68 : IVec S1 32 := broadcastInDim S1 ![] bcast_S_S1 main_c_26
  let main_v69 : IVec S1 1 := cmpi .slt main_arg0 main_v68
  let main_c_27 : IVec S_ 1 := constantI S_ 1 1#1
  let main_v70 : IVec S_ 1 := (fun x v => Host.reduce IntOp.andi x v reducesTo_S1_S_d0 h_S_) main_v69 main_c_27
  let main_v71 : IVec S_ 1 := andi main_v67 main_v70
  main_v71

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 1 := constantI S_ 1 1#1
  let main_v66 : IVec S_ 1 := (fun x v => Host.reduce IntOp.andi x v reducesTo_S1_S_d0 h_S_) main_v65 main_c_25
  let main_v67 : IVec S_ 1 := andi main_v63 main_v66
  fn_part4 (F := F) main_arg0 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S15 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S15x2048 1) : IVec S_ 1 :=
  let main_c_5 : IVec S_ 1 := constantI S_ 1 1#1
  let main_v17 : IVec S_ 1 := (fun x v => Host.reduce IntOp.andi x v reducesTo_S15x2048_S_d0_1 h_S_) main_v16 main_c_5
  let main_v18 : IVec S_ 1 := andi main_v13 main_v17
  let main_v19 : FVec F S15 .f32 := Host.absf main_arg5
  let main_cst_6 : FVec F S_ .f32 := constant S_ .f32 0x7F800000#32
  let main_v20 : FVec F S15 .f32 := broadcastInDim S15 ![] bcast_S_S15 main_cst_6
  let main_v21 : IVec S15 1 := cmpf .olt main_v19 main_v20
  let main_c_7 : IVec S_ 1 := constantI S_ 1 1#1
  let main_v22 : IVec S_ 1 := (fun x v => Host.reduce IntOp.andi x v reducesTo_S15_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S15x1024 .f32) (main_arg3 : FVec F S50257x1024 .f32) (main_arg4 : FVec F S15x2048 .f32) (main_arg5 : FVec F S15 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S15x1024 .f32 := Host.absf main_arg2
  let main_cst_0 : FVec F S_ .f32 := constant S_ .f32 0x7F800000#32
  let main_v5 : FVec F S15x1024 .f32 := broadcastInDim S15x1024 ![] bcast_S_S15x1024 main_cst_0
  let main_v6 : IVec S15x1024 1 := cmpf .olt main_v4 main_v5
  let main_c_1 : IVec S_ 1 := constantI S_ 1 1#1
  let main_v7 : IVec S_ 1 := (fun x v => Host.reduce IntOp.andi x v reducesTo_S15x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S15x2048 .f32 := Host.absf main_arg4
  let main_cst_4 : FVec F S_ .f32 := constant S_ .f32 0x7F800000#32
  let main_v15 : FVec F S15x2048 .f32 := broadcastInDim S15x2048 ![] bcast_S_S15x2048 main_cst_4
  let main_v16 : IVec S15x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S15x1024 : Shape := ⟨2, ![15, 1024]⟩
abbrev S50257x1024 : Shape := ⟨2, ![50257, 1024]⟩
abbrev S15x2048 : Shape := ⟨2, ![15, 2048]⟩
abbrev S15 : Shape := ⟨1, ![15]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x15 : Shape := ⟨2, ![1, 15]⟩
abbrev S1x3072 : Shape := ⟨2, ![1, 3072]⟩
abbrev S1x50257 : Shape := ⟨2, ![1, 50257]⟩
abbrev S1x2048 : Shape := ⟨2, ![1, 2048]⟩
abbrev S2048x15 : Shape := ⟨2, ![2048, 15]⟩
abbrev S2048x1024 : Shape := ⟨2, ![2048, 1024]⟩
abbrev S1024x3072 : Shape := ⟨2, ![1024, 3072]⟩

abbrev nBuf : Space → Nat
  | .hbm => 62
  | .vmem => 23
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S15x1024, .f32⟩
  | .hbm, ⟨3, _⟩ => ⟨S50257x1024, .f32⟩
  | .hbm, ⟨4, _⟩ => ⟨S15x2048, .f32⟩
  | .hbm, ⟨5, _⟩ => ⟨S15, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x15, .f32⟩
  | .hbm, ⟨38, _⟩ => ⟨S1x1024, .f32⟩
  | .hbm, ⟨39, _⟩ => ⟨S1x3072, .f32⟩
  | .hbm, ⟨40, _⟩ => ⟨S1x3072, .f32⟩
  | .hbm, ⟨41, _⟩ => ⟨S1x50257, .f32⟩
  | .hbm, ⟨42, _⟩ => ⟨S1x15, .f32⟩
  | .hbm, ⟨43, _⟩ => ⟨S1x1024, .f32⟩
  | .hbm, ⟨44, _⟩ => ⟨S1x1024, .f32⟩
  | .hbm, ⟨45, _⟩ => ⟨S1x50257, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1x1, .f32⟩
  | .hbm, ⟨52, _⟩ => ⟨S1x50257, .f32⟩
  | .hbm, ⟨53, _⟩ => ⟨S1x50257, .f32⟩
  | .hbm, ⟨54, _⟩ => ⟨S1x50257, .f32⟩
  | .hbm, ⟨55, _⟩ => ⟨S_, .f32⟩
  | .hbm, ⟨56, _⟩ => ⟨S1, .f32⟩
  | .hbm, ⟨57, _⟩ => ⟨S1x1, .f32⟩
  | .hbm, ⟨58, _⟩ => ⟨S1x1, .f32⟩
  | .hbm, ⟨59, _⟩ => ⟨S1x50257, .f32⟩
  | .hbm, ⟨60, _⟩ => ⟨S1x50257, .f32⟩
  | .hbm, ⟨61, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S15x1024, .f32⟩
  | .local _ .vmem, ⟨3, _⟩ => ⟨S15x2048, .f32⟩
  | .local _ .vmem, ⟨4, _⟩ => ⟨S1x15, .f32⟩
  | .local _ .vmem, ⟨5, _⟩ => ⟨S1024x2048, .f32⟩
  | .local _ .vmem, ⟨6, _⟩ => ⟨S1x1024, .f32⟩
  | .local _ .vmem, ⟨7, _⟩ => ⟨S1x15, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S3072x1024, .f32⟩
  | .local _ .vmem, ⟨12, _⟩ => ⟨S3072x1024, .f32⟩
  | .local _ .vmem, ⟨13, _⟩ => ⟨S1x3072, .f32⟩
  | .local _ .vmem, ⟨14, _⟩ => ⟨S1x3072, .f32⟩
  | .local _ .vmem, ⟨15, _⟩ => ⟨S1x1024, .f32⟩
  | .local _ .vmem, ⟨16, _⟩ => ⟨S1x1024, .f32⟩
  | .local _ .vmem, ⟨17, _⟩ => ⟨S3072x1024, .f32⟩
  | .local _ .vmem, ⟨18, _⟩ => ⟨S3072x1024, .f32⟩
  | .local _ .vmem, ⟨19, _⟩ => ⟨S1x3072, .f32⟩
  | .local _ .vmem, ⟨20, _⟩ => ⟨S1x3072, .f32⟩
  | .local _ .vmem, ⟨21, _⟩ => ⟨S1x3072, .f32⟩
  | .local _ .vmem, ⟨22, _⟩ => ⟨S1x3072, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7_0 : Ref sig .tc := ⟨.hbm, 42, rfl⟩
abbrev main_v7_1 : Ref sig .tc := ⟨.hbm, 43, rfl⟩
abbrev main_v8 : Ref sig .tc := ⟨.hbm, 44, rfl⟩
abbrev main_v9 : Ref sig .tc := ⟨.hbm, 45, rfl⟩
abbrev main_call1_cst : Ref sig .tc := ⟨.hbm, 46, rfl⟩
abbrev main_call1_v0 : Ref sig .tc := ⟨.hbm, 47, rfl⟩
abbrev main_call1_cst_0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_cst_1 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_v10 : Ref sig .tc := ⟨.hbm, 60, rfl⟩
abbrev main_v11 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3072x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3072x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3072 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3072 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1x1024 : S1x1x1024.ShapeCasts S1x1024
  shapeCasts_S15_S1x15 : S15.ShapeCasts S1x15
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  bitsLt_bf16_f32 : FTy.bits .bf16 < FTy.bits .f32
  inb_S15x2048_S15x2048_0_0 : ∀ a, (![0, 0] : Fin 2 → Nat) a + S15x2048.size a ≤ S15x2048.size a
  h_S15x2048 : 0 < S15x2048.numel
  transposes_S15x2048_p1_0_S2048x15 : S15x2048.Transposes [1, 0] S2048x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  reduces_S1x15_S1 : S1x15.Reduces [1] S1
  shapeCasts_S1_S1x1 : S1.ShapeCasts S1x1
  broadcasts_S1x1_S1x15 : S1x1.Broadcasts S1x15
  inb_S15x1024_S15x1024_0_0 : ∀ a, (![0, 0] : Fin 2 → Nat) a + S15x1024.size a ≤ S15x1024.size a
  h_S15x1024 : 0 < S15x1024.numel
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S3072x1024_S3072x1024_0_0 : ∀ a, (![0, 0] : Fin 2 → Nat) a + S3072x1024.size a ≤ S3072x1024.size a
  h_S3072x1024 : 0 < S3072x1024.numel
  transposes_S3072x1024_p1_0_S1024x3072 : S3072x1024.Transposes [1, 0] S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x15_S1x15_1_0_0_1_n_n_wf : DotDims.WF S1x2048 S2048x15 S1x15 [1] [0] [0] [1] [] []
  dot_S1x15_S15x1024_S1x1024_1_0_0_1_n_n_wf : DotDims.WF S1x15 S15x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x1024.size a ≤ S15x1024.size a
  hwx0_2 : ∀ i : grid0.Coords, EltTy.bits .f32 = 32 ∨ (Rect.block (s := S15x1024) S15x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x2048.size a ≤ S15x2048.size a
  hwx0_3 : ∀ i : grid0.Coords, EltTy.bits .f32 = 32 ∨ (Rect.block (s := S15x2048) S15x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x15.size a ≤ S1x15.size a
  hwx0_4 : ∀ i : grid0.Coords, EltTy.bits .f32 = 32 ∨ (Rect.block (s := S1x15) S1x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x15.size a ≤ S1x15.size a
  hwx0_7 : ∀ i : grid0.Coords, EltTy.bits .f32 = 32 ∨ (Rect.block (s := S1x15) S1x15.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x1024.size a ≤ S3072x1024.size a
  hwx1_2 : ∀ i : grid1.Coords, EltTy.bits .f32 = 32 ∨ (Rect.block (s := S3072x1024) S3072x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x1024.size a ≤ S3072x1024.size a
  hwx1_3 : ∀ i : grid1.Coords, EltTy.bits .f32 = 32 ∨ (Rect.block (s := S3072x1024) S3072x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3072.size a ≤ S1x3072.size a
  hwx1_4 : ∀ i : grid1.Coords, EltTy.bits .f32 = 32 ∨ (Rect.block (s := S1x3072) S1x3072.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3072x1024.size a < S50257x1024.size a
  hwx2_1 : ∀ i : grid2.Coords, EltTy.bits .f32 = 32 ∨ (Rect.unit (s := S50257x1024) (fun a => cc2_transform_1 i a * S3072x1024.size a) (fun a => (Pipeline.Clip.of (cc2_transform_1 i a) (S3072x1024.size a) (S50257x1024.size a)).extent (S3072x1024.size a)) fun a => Pipeline.Clip.inb (Pipeline.Clip.ok_of (hstart2_1 i a))).WholeWords (EltTy.packing .f32)
  hwxs2_1 : ∀ i : grid2.Coords, EltTy.bits .f32 = 32 ∨ (Rect.unit (s := S3072x1024) (fun _ => 0) (fun a => (Pipeline.Clip.of (cc2_transform_1 i a) (S3072x1024.size a) (S50257x1024.size a)).extent (S3072x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x3072.size a < S1x50257.size a
  hwx2_2 : ∀ i : grid2.Coords, EltTy.bits .f32 = 32 ∨ (Rect.unit (s := S1x50257) (fun a => cc2_transform_2 i a * S1x3072.size a) (fun a => (Pipeline.Clip.of (cc2_transform_2 i a) (S1x3072.size a) (S1x50257.size a)).extent (S1x3072.size a)) fun a => Pipeline.Clip.inb (Pipeline.Clip.ok_of (hstart2_2 i a))).WholeWords (EltTy.packing .f32)
  hwxs2_2 : ∀ i : grid2.Coords, EltTy.bits .f32 = 32 ∨ (Rect.unit (s := S1x3072) (fun _ => 0) (fun a => (Pipeline.Clip.of (cc2_transform_2 i a) (S1x3072.size a) (S1x50257.size a)).extent (S1x3072.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1x3072.size a < S1x50257.size a
  hwx2_3 : ∀ i : grid2.Coords, EltTy.bits .f32 = 32 ∨ (Rect.unit (s := S1x50257) (fun a => cc2_transform_3 i a * S1x3072.size a) (fun a => (Pipeline.Clip.of (cc2_transform_3 i a) (S1x3072.size a) (S1x50257.size a)).extent (S1x3072.size a)) fun a => Pipeline.Clip.inb (Pipeline.Clip.ok_of (hstart2_3 i a))).WholeWords (EltTy.packing .f32)
  hwxs2_3 : ∀ i : grid2.Coords, EltTy.bits .f32 = 32 ∨ (Rect.unit (s := S1x3072) (fun _ => 0) (fun a => (Pipeline.Clip.of (cc2_transform_3 i a) (S1x3072.size a) (S1x50257.size a)).extent (S1x3072.size a)) fun a => (Nat.zero_add _).trans_le (Pipeline.Clip.extent_le (Pipeline.Clip.ok_of (hstart2_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x15_S1x15_1_0_0_1_n_n : DotDims S1x2048 S2048x15 S1x15 where
  lhsContracting := [1]
  rhsContracting := [0]
  lhsNonContracting := [0]
  rhsNonContracting := [1]
  lhsBatch := []
  rhsBatch := []
  wf := dot_S1x2048_S2048x15_S1x15_1_0_0_1_n_n_wf
def dot_S1x15_S15x1024_S1x1024_1_0_0_1_n_n : DotDims S1x15 S15x1024 S1x1024 where
  lhsContracting := [1]
  rhsContracting := [0]
  lhsNonContracting := [0]
  rhsNonContracting := [1]
  lhsBatch := []
  rhsBatch := []
  wf := dot_S1x15_S15x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S15x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S15x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x15.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x15.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7_1) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S3072x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S3072x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x1024.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v8) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg12) S3072x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v6) S1x3072.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v9) S1x3072.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S15x1024 : Shape := ⟨2, ![15, 1024]⟩
abbrev S50257x1024 : Shape := ⟨2, ![50257, 1024]⟩
abbrev S15x2048 : Shape := ⟨2, ![15, 2048]⟩
abbrev S15 : Shape := ⟨1, ![15]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x15 : Shape := ⟨2, ![2048, 15]⟩
abbrev S1x15 : Shape := ⟨2, ![1, 15]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S15x1024, .f32⟩
  | .hbm, ⟨3, _⟩ => ⟨S50257x1024, .f32⟩
  | .hbm, ⟨4, _⟩ => ⟨S15x2048, .f32⟩
  | .hbm, ⟨5, _⟩ => ⟨S15, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x15, .f32⟩
  | .hbm, ⟨26, _⟩ => ⟨S1x15, .f32⟩
  | .hbm, ⟨27, _⟩ => ⟨S1x15, .f32⟩
  | .hbm, ⟨28, _⟩ => ⟨S1x15, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x15, .f32⟩
  | .hbm, ⟨36, _⟩ => ⟨S1x15, .f32⟩
  | .hbm, ⟨37, _⟩ => ⟨S1x15, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x15, .f32⟩
  | .hbm, ⟨42, _⟩ => ⟨S1x15, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S15x2048_S2048x15_1_0 : S15x2048.Transposes [1, 0] S2048x15
  bcast_S15_S1x15_1 : S15.BroadcastsInDim S1x15 (![1] : Fin 1 → Fin S1x15.rank)
  reducesTo_S1x15_S1_d1 : S1x15.ReducesTo [1] S1
  h_S_ : 0 < S_.numel
  bcast_S1x1_S1x15_0_1 : S1x1.BroadcastsInDim S1x15 (![0, 1] : Fin 2 → Fin S1x15.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x15_S1x15_1_0_0_1_n_n_wf : DotDims.WF S1x2048 S2048x15 S1x15 [1] [0] [0] [1] [] []
  dot_S1x15_S15x1024_S1x1024_1_0_0_1_n_n_wf : DotDims.WF S1x15 S15x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x15_S1x15_1_0_0_1_n_n : DotDims S1x2048 S2048x15 S1x15 where
  lhsContracting := [1]
  rhsContracting := [0]
  lhsNonContracting := [0]
  rhsNonContracting := [1]
  lhsBatch := []
  rhsBatch := []
  wf := dot_S1x2048_S2048x15_S1x15_1_0_0_1_n_n_wf
def dot_S1x15_S15x1024_S1x1024_1_0_0_1_n_n : DotDims S1x15 S15x1024 S1x1024 where
  lhsContracting := [1]
  rhsContracting := [0]
  lhsNonContracting := [0]
  rhsNonContracting := [1]
  lhsBatch := []
  rhsBatch := []
  wf := dot_S1x15_S15x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.RefStagesLib.lean ====
import Idealize.ShloMosaic.Lib.StableHlo.Run
import Mathlib.Data.List.Forall2

noncomputable section

namespace Cert.ReferenceIdeal.RunVal

open Idealize.ShloMosaic Idealize.ShloMosaic.TcCoe Idealize.ShloMosaic.StableHlo

variable {tp : Topo} {sg : RefSig} {Vl : EltTy → Type}

theorem after_append (l₁ l₂ : List (HloOp tp sg Vl)) (V : Valuation tp sg Vl) :
    after (l₁ ++ l₂) V = after l₂ (after l₁ V) := by
  induction l₁ generalizing V with
  | nil => rfl
  | cons op l ih => simp only [List.cons_append, after_cons, ih]

-- One operation more: its result from what the prefix leaves.
theorem after_take_get (ops : List (HloOp tp sg Vl)) (V : Valuation tp sg Vl) (k k1 : Nat) (hk : k1 = k + 1)
    {op : HloOp tp sg Vl} (h : ops[k]? = some op) :
    after (ops.take k1) V = op.result (after (ops.take k) V) := by
  subst hk
  obtain ⟨hlt, rfl⟩ := List.getElem?_eq_some_iff.mp h
  rw [List.take_succ_eq_append_getElem hlt, after_append]
  rfl

theorem exists_written {ops : List (HloOp tp sg Vl)} {wr : List (Ref sg .tc)}
    (h : List.Forall₂ (fun op r => op.writes = {Proc.devRef (τ := tp) .tc r}) ops wr) :
    ∀ op ∈ ops, ∃ r ∈ wr, op.writes = {Proc.devRef (τ := tp) .tc r} := by
  induction h with
  | nil => intro op hop; cases hop
  | cons hab _ ih =>
    intro op hop
    rcases List.mem_cons.mp hop with rfl | hop
    · exact ⟨_, List.mem_cons_self, hab⟩
    · obtain ⟨r, hr, hR⟩ := ih op hop
      exact ⟨r, List.mem_cons_of_mem _ hr, hR⟩

-- A reference no operation in positions j ≤ · < k writes holds after k operations what it held after j.
theorem after_take_stable {ops : List (HloOp tp sg Vl)} {wr : List (Ref sg .tc)}
    (hG : List.Forall₂ (fun op r => op.writes = {Proc.devRef (τ := tp) .tc r}) ops wr)
    (V : Valuation tp sg Vl) (r : Ref sg .tc) (j k : Nat) (hjk : j ≤ k) (hr : r ∉ (wr.take k).drop j) :
    after (ops.take k) V (Proc.devRef .tc r) = after (ops.take j) V (Proc.devRef .tc r) := by
  have hsplit : ops.take k = ops.take j ++ (ops.take k).drop j := by
    have := (List.take_append_drop j (ops.take k)).symm
    rwa [List.take_take, Nat.min_eq_left hjk] at this
  rw [hsplit, after_append]
  refine after_of_forall_not_mem _ _ fun op hop hmem => ?_
  obtain ⟨r', hr', hw⟩ := exists_written (List.forall₂_drop j (List.forall₂_take k hG)) op hop
  rw [hw, Finset.mem_singleton] at hmem
  exact hr (Proc.devRef_injective _ hmem ▸ hr')

theorem after_take_init {ops : List (HloOp tp sg Vl)} {wr : List (Ref sg .tc)}
    (hG : List.Forall₂ (fun op r => op.writes = {Proc.devRef (τ := tp) .tc r}) ops wr)
    (V : Valuation tp sg Vl) (r : Ref sg .tc) (k : Nat) (hr : r ∉ wr.take k) :
    after (ops.take k) V (Proc.devRef .tc r) = V (Proc.devRef .tc r) :=
  after_take_stable hG V r 0 k (Nat.zero_le k) hr

section Step

variable (ops : List (HloOp tp sg Vl)) (V : Valuation tp sg Vl) (k k1 : Nat) (hk : k1 = k + 1)
variable {a b c x y : Ref sg .tc}
include hk

-- The k-th operation's result after k + 1 operations, from its operands' contents after k: one lemma per arity.
theorem take_nullary {v : y.ty.Contents Vl} {hy} (h : ops[k]? = some (nullary y v hy))
    {rhs : y.ty.Contents Vl} (hr : v = rhs := by rfl) : after (ops.take k1) V (Proc.devRef .tc y) = rhs := by
  rw [after_take_get ops V k k1 hk h, nullary_result]; exact hr

theorem take_unary {f : x.ty.Contents Vl → y.ty.Contents Vl} {hx hy} (h : ops[k]? = some (unary x y f hx hy))
    {vx} (ex : after (ops.take k) V (Proc.devRef .tc x) = vx)
    {rhs : y.ty.Contents Vl} (hr : f vx = rhs := by rfl) : after (ops.take k1) V (Proc.devRef .tc y) = rhs := by
  rw [after_take_get ops V k k1 hk h, unary_result, ex]; exact hr

theorem take_binary {f : a.ty.Contents Vl → b.ty.Contents Vl → y.ty.Contents Vl} {ha hb hy}
    (h : ops[k]? = some (binary a b y f ha hb hy))
    {va vb} (ea : after (ops.take k) V (Proc.devRef .tc a) = va) (eb : after (ops.take k) V (Proc.devRef .tc b) = vb)
    {rhs : y.ty.Contents Vl} (hr : f va vb = rhs := by rfl) : after (ops.take k1) V (Proc.devRef .tc y) = rhs := by
  rw [after_take_get ops V k k1 hk h, binary_result, ea, eb]; exact hr

theorem take_ternary {f : c.ty.Contents Vl → a.ty.Contents Vl → b.ty.Contents Vl → y.ty.Contents Vl} {hc ha hb hy}
    (h : ops[k]? = some (ternary c a b y f hc ha hb hy))
    {vc va vb} (ec : after (ops.take k) V (Proc.devRef .tc c) = vc) (ea : after (ops.take k) V (Proc.devRef .tc a) = va)
    (eb : after (ops.take k) V (Proc.devRef .tc b) = vb)
    {rhs : y.ty.Contents Vl} (hr : f vc va vb = rhs := by rfl) : after (ops.take k1) V (Proc.devRef .tc y) = rhs := by
  rw [after_take_get ops V k k1 hk h, ternary_result, ec, ea, eb]; exact hr

theorem take_reshape {he hn hx hy} (h : ops[k]? = some (reshape x y he hn hx hy))
    {vx} (ex : after (ops.take k) V (Proc.devRef .tc x) = vx)
    {rhs : y.ty.Contents Vl} (hr : (fun i => he ▸ shapeCast y.ty.shape vx hn i) = rhs := by rfl) :
    after (ops.take k1) V (Proc.devRef .tc y) = rhs := by
  rw [after_take_get ops V k k1 hk h, reshape_result, ex]; exact hr

end Step

end Cert.ReferenceIdeal.RunVal

end
-- ==== Proof.RefKeep.lean ====
import proofs.«411179_j26594437497554_3_alg».proof.Proof.RunP

noncomputable section

namespace Cert.ReferenceIdeal.RunVal

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

abbrev ops_W : List (Ref sig .tc) :=
  [main_c, main_v0, main_v1, main_c_0, main_v2, main_v3, main_v4, main_v5, main_v6, main_v7, main_v8, main_v9, main_v10, main_v11, main_v12, main_cst, main_v13, main_cst_1, main_v14, main_v15, main_v16, main_v17, main_v18, main_v19, main_cst_2, main_v20, main_v21, main_v22, main_v23, main_v24, main_v25, main_v26, main_v27, main_v28, main_v29, main_call0_cst, main_call0_v0, main_v30, main_v31, main_v32, main_v33, main_v34, main_v35, main_v36, main_v37, main_v38, main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66, main_v67, main_v68, main_v69, main_v70, main_call1_cst, main_call1_v0, main_call1_cst_0, main_call1_v1, main_call1_v2, main_call1_v3, main_call1_v4, main_call1_v5, main_call1_v6, main_call1_cst_1, main_call1_v7, main_call1_v8, main_call1_v9, main_call1_v10, main_v71, main_v72]

theorem ops_fresh : (ops : List (HloOp τ sig (Elt F))).Forall fun op => op.fresh = ∅ := by
  simp only [List.Forall]; repeat' constructor

theorem ops_writes : (ops : List (HloOp τ sig (Elt F))).Forall fun op =>
    op.writes ⊆ (ops_W.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

theorem after_arg (V : Valuation τ sig (Elt F)) (r : Ref sig .tc) (h : r ∉ ops_W) :
    StableHlo.after ops V (Proc.devRef .tc r) = V (Proc.devRef .tc r) :=
  StableHlo.after_of_writes_sub ops _ ops_writes h

theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (launchContents m d) (Proc.devRef .tc b) :=
  run_seq scopedRefs_eq scopedSems_eq defs main (fun _ => ops) main_eq (fun _ => ops_sub) m ρ
    (fun _ op h => (List.forall_iff_forall_mem.mp ops_fresh) op h)

end Cert.ReferenceIdeal.RunVal

end
-- ==== Proof.RefStagesTab.lean ====
import proofs.«411179_j26594437497554_3_alg».proof.Proof.RefStagesLib
import proofs.«411179_j26594437497554_3_alg».proof.Proof.RefKeep
import proofs.«411179_j26594437497554_3_alg».proof.Proof.ReadP

set_option maxRecDepth 65536

noncomputable section

namespace Cert.ReferenceIdeal.RunVal

open Cert.ReferenceIdeal Cert.ReferenceIdeal.Gen Cert.ReferenceIdeal.Value Cert.ReferenceIdeal.Read Idealize.ShloMosaic Idealize.ShloMosaic.TcCoe Idealize.ShloMosaic.StableHlo

variable {F : FTy → Type} [FloatOps F]

theorem ops_length : (ops (F := F)).length = 99 := rfl

-- Each operation writes the reference paired with it, and nothing else.
theorem hG : List.Forall₂ (fun op r => op.writes = {Proc.devRef (τ := τ) .tc r}) (ops (F := F)) ops_W := by
  repeat (first | exact List.Forall₂.nil | refine List.Forall₂.cons rfl ?_)

variable (V : Valuation τ sig (Elt F))

-- What @main's arguments hold at the start, and what a reference holds after the first k operations.
abbrev arg0 := V (Proc.devRef .tc main_arg0)
abbrev arg1 := V (Proc.devRef .tc main_arg1)
abbrev arg2 := V (Proc.devRef .tc main_arg2)
abbrev arg3 := V (Proc.devRef .tc main_arg3)
abbrev arg4 := V (Proc.devRef .tc main_arg4)
abbrev arg5 := V (Proc.devRef .tc main_arg5)
abbrev arg6 := V (Proc.devRef .tc main_arg6)
abbrev arg7 := V (Proc.devRef .tc main_arg7)
abbrev arg8 := V (Proc.devRef .tc main_arg8)
abbrev arg9 := V (Proc.devRef .tc main_arg9)
abbrev arg10 := V (Proc.devRef .tc main_arg10)
abbrev arg11 := V (Proc.devRef .tc main_arg11)
abbrev arg12 := V (Proc.devRef .tc main_arg12)
abbrev arg13 := V (Proc.devRef .tc main_arg13)
abbrev aft (k : Nat) (r : Ref sig .tc) := after ((ops (F := F)).take k) V (Proc.devRef .tc r)

-- What a reference held after j operations it holds after k, none of the operations between writing it.
theorem carry (r : Ref sig .tc) (j k : Nat) {v} (e : aft V j r = v)
    (hjk : j ≤ k := by decide) (hr : r ∉ (ops_W.take k).drop j := by decide) : aft V k r = v :=
  (after_take_stable hG V r j k hjk hr).trans e

theorem init (r : Ref sig .tc) (k : Nat) (hr : r ∉ ops_W.take k := by decide) : aft V k r = V (Proc.devRef .tc r) :=
  after_take_init hG V r k hr

-- One lemma per operation, in order: after the operations up to its own, the reference it writes holds its stage function.
theorem st_main_c :
    aft V 1 main_c = val_main_c (F := F) :=
  take_nullary ops V 0 1 rfl rfl

theorem st_main_v0 :
    aft V 2 main_v0 = val_main_v0 (F := F) :=
  take_unary ops V 1 2 rfl rfl (st_main_c V)

theorem st_main_v1 :
    aft V 3 main_v1 = val_main_v1 (F := F) (arg0 V) :=
  take_binary ops V 2 3 rfl rfl (init V main_arg0 2) (st_main_v0 V)

theorem st_main_c_0 :
    aft V 4 main_c_0 = val_main_c_0 (F := F) :=
  take_nullary ops V 3 4 rfl rfl

theorem st_main_v2 :
    aft V 5 main_v2 = val_main_v2 (F := F) :=
  take_unary ops V 4 5 rfl rfl (st_main_c_0 V)

theorem st_main_v3 :
    aft V 6 main_v3 = val_main_v3 (F := F) (arg0 V) :=
  take_binary ops V 5 6 rfl rfl (init V main_arg0 5) (st_main_v2 V)

theorem st_main_v4 :
    aft V 7 main_v4 = val_main_v4 (F := F) (arg0 V) :=
  take_ternary ops V 6 7 rfl rfl (carry V main_v1 3 6 (st_main_v1 V)) (st_main_v3 V) (init V main_arg0 6)

theorem st_main_v5 :
    aft V 8 main_v5 = val_main_v5 (F := F) (arg0 V) :=
  take_unary ops V 7 8 rfl rfl (st_main_v4 V)

theorem st_main_v6 :
    aft V 9 main_v6 = val_main_v6 (F := F) (arg0 V) (arg3 V) :=
  take_binary ops V 8 9 rfl rfl (init V main_arg3 8) (st_main_v5 V)

theorem st_main_v7 :
    aft V 10 main_v7 = val_main_v7 (F := F) (arg1 V) :=
  take_reshape ops V 9 10 rfl rfl (init V main_arg1 9)

theorem st_main_v8 :
    aft V 11 main_v8 = val_main_v8 (F := F) (arg0 V) (arg1 V) (arg3 V) :=
  take_binary ops V 10 11 rfl rfl (carry V main_v6 9 10 (st_main_v6 V)) (st_main_v7 V)

theorem st_main_v9 :
    aft V 12 main_v9 = val_main_v9 (F := F) (arg4 V) :=
  take_unary ops V 11 12 rfl rfl (init V main_arg4 11)

theorem st_main_v10 :
    aft V 13 main_v10 = val_main_v10 (F := F) (arg0 V) (arg1 V) (arg3 V) (arg4 V) :=
  take_binary ops V 12 13 rfl rfl (carry V main_v8 11 12 (st_main_v8 V)) (st_main_v9 V)

theorem st_main_v11 :
    aft V 14 main_v11 = val_main_v11 (F := F) (arg5 V) :=
  take_unary ops V 13 14 rfl rfl (init V main_arg5 13)

theorem st_main_v12 :
    aft V 15 main_v12 = val_main_v12 (F := F) (arg0 V) (arg1 V) (arg3 V) (arg4 V) (arg5 V) :=
  take_binary ops V 14 15 rfl rfl (carry V main_v10 13 14 (st_main_v10 V)) (st_main_v11 V)

theorem st_main_cst :
    aft V 16 main_cst = val_main_cst (F := F) :=
  take_nullary ops V 15 16 rfl rfl

theorem st_main_v13 :
    aft V 17 main_v13 = val_main_v13 (F := F) (arg0 V) (arg1 V) (arg3 V) (arg4 V) (arg5 V) :=
  take_binary ops V 16 17 rfl rfl (carry V main_v12 15 16 (st_main_v12 V)) (st_main_cst V)

theorem st_main_cst_1 :
    aft V 18 main_cst_1 = val_main_cst_1 (F := F) :=
  take_nullary ops V 17 18 rfl rfl

theorem st_main_v14 :
    aft V 19 main_v14 = val_main_v14 (F := F) :=
  take_unary ops V 18 19 rfl rfl (st_main_cst_1 V)

theorem st_main_v15 :
    aft V 20 main_v15 = val_main_v15 (F := F) (arg0 V) (arg1 V) (arg3 V) (arg4 V) (arg5 V) :=
  take_binary ops V 19 20 rfl rfl (st_main_v14 V) (carry V main_v13 17 19 (st_main_v13 V))

theorem st_main_v16 :
    aft V 21 main_v16 = val_main_v16 (F := F) (arg0 V) (arg1 V) (arg3 V) (arg4 V) (arg5 V) :=
  take_unary ops V 20 21 rfl rfl (st_main_v15 V)

theorem st_main_v17 :
    aft V 22 main_v17 = val_main_v17 (F := F) (arg0 V) (arg1 V) (arg3 V) (arg4 V) (arg5 V) :=
  take_unary ops V 21 22 rfl rfl (st_main_v16 V)

theorem st_main_v18 :
    aft V 23 main_v18 = val_main_v18 (F := F) (arg0 V) (arg1 V) (arg3 V) (arg4 V) (arg5 V) :=
  take_binary ops V 22 23 rfl rfl (carry V main_v12 15 22 (st_main_v12 V)) (st_main_v17 V)

theorem st_main_v19 :
    aft V 24 main_v19 = val_main_v19 (F := F) (arg0 V) (arg1 V) (arg3 V) (arg4 V) (arg5 V) :=
  take_unary ops V 23 24 rfl rfl (st_main_v18 V)

theorem st_main_cst_2 :
    aft V 25 main_cst_2 = val_main_cst_2 (F := F) :=
  take_nullary ops V 24 25 rfl rfl

theorem st_main_v20 :
    aft V 26 main_v20 = val_main_v20 (F := F) (arg0 V) (arg1 V) (arg3 V) (arg4 V) (arg5 V) :=
  take_binary ops V 25 26 rfl rfl (carry V main_v19 24 25 (st_main_v19 V)) (st_main_cst_2 V)

theorem st_main_v21 :
    aft V 27 main_v21 = val_main_v21 (F := F) (arg0 V) (arg1 V) (arg3 V) (arg4 V) (arg5 V) :=
  take_unary ops V 26 27 rfl rfl (st_main_v20 V)

theorem st_main_v22 :
    aft V 28 main_v22 = val_main_v22 (F := F) (arg0 V) (arg1 V) (arg3 V) (arg4 V) (arg5 V) :=
  take_unary ops V 27 28 rfl rfl (st_main_v21 V)

theorem st_main_v23 :
    aft V 29 main_v23 = val_main_v23 (F := F) (arg0 V) (arg1 V) (arg3 V) (arg4 V) (arg5 V) :=
  take_binary ops V 28 29 rfl rfl (carry V main_v19 24 28 (st_main_v19 V)) (st_main_v22 V)

theorem st_main_v24 :
    aft V 30 main_v24 = val_main_v24 (F := F) (arg0 V) (arg1 V) (arg2 V) (arg3 V) (arg4 V) (arg5 V) :=
  take_binary ops V 29 30 rfl rfl (st_main_v23 V) (init V main_arg2 29)

theorem st_main_v25 :
    aft V 31 main_v25 = val_main_v25 (F := F) (arg0 V) (arg1 V) (arg2 V) (arg3 V) (arg4 V) (arg5 V) :=
  take_binary ops V 30 31 rfl rfl (carry V main_v6 9 30 (st_main_v6 V)) (st_main_v24 V)

theorem st_main_v26 :
    aft V 32 main_v26 = val_main_v26 (F := F) (arg6 V) :=
  take_unary ops V 31 32 rfl rfl (init V main_arg6 31)

theorem st_main_v27 :
    aft V 33 main_v27 = val_main_v27 (F := F) (arg0 V) (arg1 V) (arg2 V) (arg3 V) (arg4 V) (arg5 V) (arg6 V) :=
  take_binary ops V 32 33 rfl rfl (carry V main_v25 31 32 (st_main_v25 V)) (st_main_v26 V)

theorem st_main_v28 :
    aft V 34 main_v28 = val_main_v28 (F := F) (arg7 V) :=
  take_unary ops V 33 34 rfl rfl (init V main_arg7 33)

theorem st_main_v29 :
    aft V 35 main_v29 = val_main_v29 (F := F) (arg0 V) (arg1 V) (arg2 V) (arg3 V) (arg4 V) (arg5 V) (arg6 V) (arg7 V) :=
  take_binary ops V 34 35 rfl rfl (carry V main_v27 33 34 (st_main_v27 V)) (st_main_v28 V)

theorem st_main_call0_cst :
    aft V 36 main_call0_cst = val_main_call0_cst (F := F) :=
  take_nullary ops V 35 36 rfl rfl

theorem st_main_call0_v0 :
    aft V 37 main_call0_v0 = val_main_call0_v0 (F := F) :=
  take_unary ops V 36 37 rfl rfl (st_main_call0_cst V)

theorem st_main_v30 :
    aft V 38 main_v30 = val_main_v30 (F := F) (arg0 V) (arg1 V) (arg2 V) (arg3 V) (arg4 V) (arg5 V) (arg6 V) (arg7 V) :=
  take_binary ops V 37 38 rfl rfl (carry V main_v29 35 37 (st_main_v29 V)) (st_main_call0_v0 V)

theorem st_main_v31 :
    aft V 39 main_v31 = val_main_v31 (F := F) (arg8 V) :=
  take_unary ops V 38 39 rfl rfl (init V main_arg8 38)

theorem st_main_v32 :
    aft V 40 main_v32 = val_main_v32 (F := F) (arg0 V) (arg1 V) (arg2 V) (arg3 V) (arg4 V) (arg5 V) (arg6 V) (arg7 V) (arg8 V) :=
  take_binary ops V 39 40 rfl rfl (carry V main_v30 38 39 (st_main_v30 V)) (st_main_v31 V)

theorem st_main_v33 :
    aft V 41 main_v33 = val_main_v33 (F := F) (arg10 V) :=
  take_unary ops V 40 41 rfl rfl (init V main_arg10 40)

theorem st_main_v34 :
    aft V 42 main_v34 = val_main_v34 (F := F) (arg0 V) (arg1 V) (arg2 V) (arg3 V) (arg4 V) (arg5 V) (arg6 V) (arg7 V) (arg8 V) (arg10 V) :=
  take_binary ops V 41 42 rfl rfl (carry V main_v32 40 41 (st_main_v32 V)) (st_main_v33 V)

theorem st_main_v35 :
    aft V 43 main_v35 = val_main_v35 (F := F) (arg9 V) :=
  take_unary ops V 42 43 rfl rfl (init V main_arg9 42)

theorem st_main_v36 :
    aft V 44 main_v36 = val_main_v36 (F := F) (arg1 V) (arg9 V) :=
  take_binary ops V 43 44 rfl rfl (carry V main_v7 10 43 (st_main_v7 V)) (st_main_v35 V)

theorem st_main_v37 :
    aft V 45 main_v37 = val_main_v37 (F := F) (arg11 V) :=
  take_unary ops V 44 45 rfl rfl (init V main_arg11 44)

theorem st_main_v38 :
    aft V 46 main_v38 = val_main_v38 (F := F) (arg1 V) (arg9 V) (arg11 V) :=
  take_binary ops V 45 46 rfl rfl (carry V main_v36 44 45 (st_main_v36 V)) (st_main_v37 V)

theorem st_main_v39 :
    aft V 47 main_v39 = val_main_v39 (F := F) (arg0 V) (arg1 V) (arg2 V) (arg3 V) (arg4 V) (arg5 V) (arg6 V) (arg7 V) (arg8 V) (arg10 V) :=
  take_unary ops V 46 47 rfl rfl (carry V main_v34 42 46 (st_main_v34 V))

theorem st_main_v40 :
    aft V 48 main_v40 = val_main_v40 (F := F) (arg0 V) (arg1 V) (arg2 V) (arg3 V) (arg4 V) (arg5 V) (arg6 V) (arg7 V) (arg8 V) (arg10 V) :=
  take_unary ops V 47 48 rfl rfl (carry V main_v34 42 47 (st_main_v34 V))

theorem st_main_v41 :
    aft V 49 main_v41 = val_main_v41 (F := F) (arg0 V) (arg1 V) (arg2 V) (arg3 V) (arg4 V) (arg5 V) (arg6 V) (arg7 V) (arg8 V) (arg10 V) :=
  take_unary ops V 48 49 rfl rfl (carry V main_v34 42 48 (st_main_v34 V))

theorem st_main_v42 :
    aft V 50 main_v42 = val_main_v42 (F := F) (arg1 V) (arg9 V) (arg11 V) :=
  take_unary ops V 49 50 rfl rfl (carry V main_v38 46 49 (st_main_v38 V))

theorem st_main_v43 :
    aft V 51 main_v43 = val_main_v43 (F := F) (arg1 V) (arg9 V) (arg11 V) :=
  take_unary ops V 50 51 rfl rfl (carry V main_v38 46 50 (st_main_v38 V))

theorem st_main_v44 :
    aft V 52 main_v44 = val_main_v44 (F := F) (arg1 V) (arg9 V) (arg11 V) :=
  take_unary ops V 51 52 rfl rfl (carry V main_v38 46 51 (st_main_v38 V))

theorem st_main_v45 :
    aft V 53 main_v45 = val_main_v45 (F := F) (arg0 V) (arg1 V) (arg2 V) (arg3 V) (arg4 V) (arg5 V) (arg6 V) (arg7 V) (arg8 V) (arg9 V) (arg10 V) (arg11 V) :=
  take_binary ops V 52 53 rfl rfl (carry V main_v39 47 52 (st_main_v39 V)) (carry V main_v42 50 52 (st_main_v42 V))

theorem st_main_v46 :
    aft V 54 main_v46 = val_main_v46 (F := F) (arg0 V) (arg1 V) (arg2 V) (arg3 V) (arg4 V) (arg5 V) (arg6 V) (arg7 V) (arg8 V) (arg9 V) (arg10 V) (arg11 V) :=
  take_unary ops V 53 54 rfl rfl (st_main_v45 V)

theorem st_main_v47 :
    aft V 55 main_v47 = val_main_v47 (F := F) (arg0 V) (arg1 V) (arg2 V) (arg3 V) (arg4 V) (arg5 V) (arg6 V) (arg7 V) (arg8 V) (arg9 V) (arg10 V) (arg11 V) :=
  take_unary ops V 54 55 rfl rfl (st_main_v46 V)

theorem st_main_cst_3 :
    aft V 56 main_cst_3 = val_main_cst_3 (F := F) :=
  take_nullary ops V 55 56 rfl rfl

theorem st_main_v48 :
    aft V 57 main_v48 = val_main_v48 (F := F) :=
  take_unary ops V 56 57 rfl rfl (st_main_cst_3 V)

theorem st_main_v49 :
    aft V 58 main_v49 = val_main_v49 (F := F) (arg0 V) (arg1 V) (arg2 V) (arg3 V) (arg4 V) (arg5 V) (arg6 V) (arg7 V) (arg8 V) (arg9 V) (arg10 V) (arg11 V) :=
  take_binary ops V 57 58 rfl rfl (st_main_v48 V) (carry V main_v47 55 57 (st_main_v47 V))

theorem st_main_cst_4 :
    aft V 59 main_cst_4 = val_main_cst_4 (F := F) :=
  take_nullary ops V 58 59 rfl rfl

theorem st_main_v50 :
    aft V 60 main_v50 = val_main_v50 (F := F) :=
  take_unary ops V 59 60 rfl rfl (st_main_cst_4 V)

theorem st_main_v51 :
    aft V 61 main_v51 = val_main_v51 (F := F) (arg0 V) (arg1 V) (arg2 V) (arg3 V) (arg4 V) (arg5 V) (arg6 V) (arg7 V) (arg8 V) (arg9 V) (arg10 V) (arg11 V) :=
  take_binary ops V 60 61 rfl rfl (st_main_v50 V) (carry V main_v49 58 60 (st_main_v49 V))

theorem st_main_v52 :
    aft V 62 main_v52 = val_main_v52 (F := F) (arg0 V) (arg1 V) (arg2 V) (arg3 V) (arg4 V) (arg5 V) (arg6 V) (arg7 V) (arg8 V) (arg9 V) (arg10 V) (arg11 V) :=
  take_binary ops V 61 62 rfl rfl (carry V main_v40 48 61 (st_main_v40 V)) (carry V main_v43 51 61 (st_main_v43 V))

theorem st_main_v53 :
    aft V 63 main_v53 = val_main_v53 (F := F) (arg0 V) (arg1 V) (arg2 V) (arg3 V) (arg4 V) (arg5 V) (arg6 V) (arg7 V) (arg8 V) (arg9 V) (arg10 V) (arg11 V) :=
  take_unary ops V 62 63 rfl rfl (st_main_v52 V)

theorem st_main_v54 :
    aft V 64 main_v54 = val_main_v54 (F := F) (arg0 V) (arg1 V) (arg2 V) (arg3 V) (arg4 V) (arg5 V) (arg6 V) (arg7 V) (arg8 V) (arg9 V) (arg10 V) (arg11 V) :=
  take_unary ops V 63 64 rfl rfl (st_main_v53 V)

theorem st_main_cst_5 :
    aft V 65 main_cst_5 = val_main_cst_5 (F := F) :=
  take_nullary ops V 64 65 rfl rfl

theorem st_main_v55 :
    aft V 66 main_v55 = val_main_v55 (F := F) :=
  take_unary ops V 65 66 rfl rfl (st_main_cst_5 V)

theorem st_main_v56 :
    aft V 67 main_v56 = val_main_v56 (F := F) (arg0 V) (arg1 V) (arg2 V) (arg3 V) (arg4 V) (arg5 V) (arg6 V) (arg7 V) (arg8 V) (arg9 V) (arg10 V) (arg11 V) :=
  take_binary ops V 66 67 rfl rfl (st_main_v55 V) (carry V main_v54 64 66 (st_main_v54 V))

theorem st_main_cst_6 :
    aft V 68 main_cst_6 = val_main_cst_6 (F := F) :=
  take_nullary ops V 67 68 rfl rfl

theorem st_main_v57 :
    aft V 69 main_v57 = val_main_v57 (F := F) :=
  take_unary ops V 68 69 rfl rfl (st_main_cst_6 V)

theorem st_main_v58 :
    aft V 70 main_v58 = val_main_v58 (F := F) (arg0 V) (arg1 V) (arg2 V) (arg3 V) (arg4 V) (arg5 V) (arg6 V) (arg7 V) (arg8 V) (arg9 V) (arg10 V) (arg11 V) :=
  take_binary ops V 69 70 rfl rfl (st_main_v57 V) (carry V main_v56 67 69 (st_main_v56 V))

theorem st_main_v59 :
    aft V 71 main_v59 = val_main_v59 (F := F) (arg0 V) (arg1 V) (arg2 V) (arg3 V) (arg4 V) (arg5 V) (arg6 V) (arg7 V) (arg8 V) (arg9 V) (arg10 V) (arg11 V) :=
  take_binary ops V 70 71 rfl rfl (carry V main_v51 61 70 (st_main_v51 V)) (carry V main_v44 52 70 (st_main_v44 V))

theorem st_main_v60 :
    aft V 72 main_v60 = val_main_v60 (F := F) (arg0 V) (arg1 V) (arg2 V) (arg3 V) (arg4 V) (arg5 V) (arg6 V) (arg7 V) (arg8 V) (arg9 V) (arg10 V) (arg11 V) :=
  take_binary ops V 71 72 rfl rfl (carry V main_v41 49 71 (st_main_v41 V)) (st_main_v59 V)

theorem st_main_v61 :
    aft V 73 main_v61 = val_main_v61 (F := F) (arg0 V) (arg1 V) (arg2 V) (arg3 V) (arg4 V) (arg5 V) (arg6 V) (arg7 V) (arg8 V) (arg9 V) (arg10 V) (arg11 V) :=
  take_unary ops V 72 73 rfl rfl (st_main_v60 V)

theorem st_main_cst_7 :
    aft V 74 main_cst_7 = val_main_cst_7 (F := F) :=
  take_nullary ops V 73 74 rfl rfl

theorem st_main_v62 :
    aft V 75 main_v62 = val_main_v62 (F := F) :=
  take_unary ops V 74 75 rfl rfl (st_main_cst_7 V)

theorem st_main_v63 :
    aft V 76 main_v63 = val_main_v63 (F := F) (arg0 V) (arg1 V) (arg2 V) (arg3 V) (arg4 V) (arg5 V) (arg6 V) (arg7 V) (arg8 V) (arg9 V) (arg10 V) (arg11 V) :=
  take_binary ops V 75 76 rfl rfl (st_main_v62 V) (carry V main_v58 70 75 (st_main_v58 V))

theorem st_main_v64 :
    aft V 77 main_v64 = val_main_v64 (F := F) (arg0 V) (arg1 V) (arg2 V) (arg3 V) (arg4 V) (arg5 V) (arg6 V) (arg7 V) (arg8 V) (arg9 V) (arg10 V) (arg11 V) :=
  take_binary ops V 76 77 rfl rfl (st_main_v63 V) (carry V main_v61 73 76 (st_main_v61 V))

theorem st_main_v65 :
    aft V 78 main_v65 = val_main_v65 (F := F) (arg0 V) (arg1 V) (arg2 V) (arg3 V) (arg4 V) (arg5 V) (arg6 V) (arg7 V) (arg8 V) (arg9 V) (arg10 V) (arg11 V) :=
  take_binary ops V 77 78 rfl rfl (carry V main_v58 70 77 (st_main_v58 V)) (carry V main_v7 10 77 (st_main_v7 V))

theorem st_main_v66 :
    aft V 79 main_v66 = val_main_v66 (F := F) (arg0 V) (arg1 V) (arg2 V) (arg3 V) (arg4 V) (arg5 V) (arg6 V) (arg7 V) (arg8 V) (arg9 V) (arg10 V) (arg11 V) :=
  take_binary ops V 78 79 rfl rfl (carry V main_v64 77 78 (st_main_v64 V)) (st_main_v65 V)

theorem st_main_v67 :
    aft V 80 main_v67 = val_main_v67 (F := F) (arg12 V) :=
  take_unary ops V 79 80 rfl rfl (init V main_arg12 79)

theorem st_main_v68 :
    aft V 81 main_v68 = val_main_v68 (F := F) (arg0 V) (arg1 V) (arg2 V) (arg3 V) (arg4 V) (arg5 V) (arg6 V) (arg7 V) (arg8 V) (arg9 V) (arg10 V) (arg11 V) (arg12 V) :=
  take_binary ops V 80 81 rfl rfl (carry V main_v66 79 80 (st_main_v66 V)) (st_main_v67 V)

theorem st_main_v69 :
    aft V 82 main_v69 = val_main_v69 (F := F) (arg13 V) :=
  take_unary ops V 81 82 rfl rfl (init V main_arg13 81)

theorem st_main_v70 :
    aft V 83 main_v70 = val_main_v70 (F := F) (arg0 V) (arg1 V) (arg2 V) (arg3 V) (arg4 V) (arg5 V) (arg6 V) (arg7 V) (arg8 V) (arg9 V) (arg10 V) (arg11 V) (arg12 V) (arg13 V) :=
  take_binary ops V 82 83 rfl rfl (carry V main_v68 81 82 (st_main_v68 V)) (st_main_v69 V)

theorem st_main_call1_cst :
    aft V 84 main_call1_cst = val_main_call1_cst (F := F) :=
  take_nullary ops V 83 84 rfl rfl

theorem st_main_call1_v0 :
    aft V 85 main_call1_v0 = val_main_call1_v0 (F := F) (arg0 V) (arg1 V) (arg2 V) (arg3 V) (arg4 V) (arg5 V) (arg6 V) (arg7 V) (arg8 V) (arg9 V) (arg10 V) (arg11 V) (arg12 V) (arg13 V) :=
  take_binary ops V 84 85 rfl rfl (carry V main_v70 83 84 (st_main_v70 V)) (st_main_call1_cst V)

theorem st_main_call1_cst_0 :
    aft V 86 main_call1_cst_0 = val_main_call1_cst_0 (F := F) :=
  take_nullary ops V 85 86 rfl rfl

theorem st_main_call1_v1 :
    aft V 87 main_call1_v1 = val_main_call1_v1 (F := F) :=
  take_unary ops V 86 87 rfl rfl (st_main_call1_cst_0 V)

theorem st_main_call1_v2 :
    aft V 88 main_call1_v2 = val_main_call1_v2 (F := F) (arg0 V) (arg1 V) (arg2 V) (arg3 V) (arg4 V) (arg5 V) (arg6 V) (arg7 V) (arg8 V) (arg9 V) (arg10 V) (arg11 V) (arg12 V) (arg13 V) :=
  take_binary ops V 87 88 rfl rfl (st_main_call1_v1 V) (carry V main_call1_v0 85 87 (st_main_call1_v0 V))

theorem st_main_call1_v3 :
    aft V 89 main_call1_v3 = val_main_call1_v3 (F := F) (arg0 V) (arg1 V) (arg2 V) (arg3 V) (arg4 V) (arg5 V) (arg6 V) (arg7 V) (arg8 V) (arg9 V) (arg10 V) (arg11 V) (arg12 V) (arg13 V) :=
  take_unary ops V 88 89 rfl rfl (st_main_call1_v2 V)

theorem st_main_call1_v4 :
    aft V 90 main_call1_v4 = val_main_call1_v4 (F := F) (arg0 V) (arg1 V) (arg2 V) (arg3 V) (arg4 V) (arg5 V) (arg6 V) (arg7 V) (arg8 V) (arg9 V) (arg10 V) (arg11 V) (arg12 V) (arg13 V) :=
  take_unary ops V 89 90 rfl rfl (st_main_call1_v3 V)

theorem st_main_call1_v5 :
    aft V 91 main_call1_v5 = val_main_call1_v5 (F := F) (arg0 V) (arg1 V) (arg2 V) (arg3 V) (arg4 V) (arg5 V) (arg6 V) (arg7 V) (arg8 V) (arg9 V) (arg10 V) (arg11 V) (arg12 V) (arg13 V) :=
  take_binary ops V 90 91 rfl rfl (carry V main_v70 83 90 (st_main_v70 V)) (st_main_call1_v4 V)

theorem st_main_call1_v6 :
    aft V 92 main_call1_v6 = val_main_call1_v6 (F := F) (arg0 V) (arg1 V) (arg2 V) (arg3 V) (arg4 V) (arg5 V) (arg6 V) (arg7 V) (arg8 V) (arg9 V) (arg10 V) (arg11 V) (arg12 V) (arg13 V) :=
  take_unary ops V 91 92 rfl rfl (st_main_call1_v5 V)

theorem st_main_call1_cst_1 :
    aft V 93 main_call1_cst_1 = val_main_call1_cst_1 (F := F) :=
  take_nullary ops V 92 93 rfl rfl

theorem st_main_call1_v7 :
    aft V 94 main_call1_v7 = val_main_call1_v7 (F := F) (arg0 V) (arg1 V) (arg2 V) (arg3 V) (arg4 V) (arg5 V) (arg6 V) (arg7 V) (arg8 V) (arg9 V) (arg10 V) (arg11 V) (arg12 V) (arg13 V) :=
  take_binary ops V 93 94 rfl rfl (carry V main_call1_v6 92 93 (st_main_call1_v6 V)) (st_main_call1_cst_1 V)

theorem st_main_call1_v8 :
    aft V 95 main_call1_v8 = val_main_call1_v8 (F := F) (arg0 V) (arg1 V) (arg2 V) (arg3 V) (arg4 V) (arg5 V) (arg6 V) (arg7 V) (arg8 V) (arg9 V) (arg10 V) (arg11 V) (arg12 V) (arg13 V) :=
  take_unary ops V 94 95 rfl rfl (st_main_call1_v7 V)

theorem st_main_call1_v9 :
    aft V 96 main_call1_v9 = val_main_call1_v9 (F := F) (arg0 V) (arg1 V) (arg2 V) (arg3 V) (arg4 V) (arg5 V) (arg6 V) (arg7 V) (arg8 V) (arg9 V) (arg10 V) (arg11 V) (arg12 V) (arg13 V) :=
  take_unary ops V 95 96 rfl rfl (st_main_call1_v8 V)

theorem st_main_call1_v10 :
    aft V 97 main_call1_v10 = val_main_call1_v10 (F := F) (arg0 V) (arg1 V) (arg2 V) (arg3 V) (arg4 V) (arg5 V) (arg6 V) (arg7 V) (arg8 V) (arg9 V) (arg10 V) (arg11 V) (arg12 V) (arg13 V) :=
  take_unary ops V 96 97 rfl rfl (st_main_call1_v9 V)

theorem st_main_v71 :
    aft V 98 main_v71 = val_main_v71 (F := F) (arg0 V) (arg1 V) (arg2 V) (arg3 V) (arg4 V) (arg5 V) (arg6 V) (arg7 V) (arg8 V) (arg9 V) (arg10 V) (arg11 V) (arg12 V) (arg13 V) :=
  take_binary ops V 97 98 rfl rfl (carry V main_call1_v5 91 97 (st_main_call1_v5 V)) (st_main_call1_v10 V)

theorem st_main_v72 :
    aft V 99 main_v72 = val_main_v72 (F := F) (arg0 V) (arg1 V) (arg2 V) (arg3 V) (arg4 V) (arg5 V) (arg6 V) (arg7 V) (arg8 V) (arg9 V) (arg10 V) (arg11 V) :=
  take_unary ops V 98 99 rfl rfl (carry V main_v66 79 98 (st_main_v66 V))

end Cert.ReferenceIdeal.RunVal

end
-- ==== Proof.RefStages.lean ====
import proofs.«411179_j26594437497554_3_alg».proof.Proof.RefStagesTab

set_option maxRecDepth 8192

noncomputable section

namespace Cert.ReferenceIdeal.RunVal

open Cert.ReferenceIdeal Cert.ReferenceIdeal.Gen Cert.ReferenceIdeal.Value Cert.ReferenceIdeal.Read Idealize.ShloMosaic Idealize.ShloMosaic.TcCoe Idealize.ShloMosaic.StableHlo

variable {F : FTy → Type} [FloatOps F]

theorem ops_take_all : (ops (F := F)).take 99 = ops :=
  List.take_of_length_le (Nat.le_of_eq ops_length)

theorem after_ops_stable (V : Valuation τ sig (Elt F)) (r : Ref sig .tc) (j : Nat) (hj : j ≤ 99)
    (hr : r ∉ (ops_W.take 99).drop j) :
    after ops V (Proc.devRef .tc r) = after ((ops (F := F)).take j) V (Proc.devRef .tc r) := by
  have h := after_take_stable hG V r j 99 hj hr
  rwa [ops_take_all] at h

theorem after_v23 (V : Valuation τ sig (Elt F)) :
    after ops V (Proc.devRef .tc main_v23) = val_main_v23 (F := F) (arg0 V) (arg1 V) (arg3 V) (arg4 V) (arg5 V) :=
  (after_ops_stable V main_v23 29 (by decide) (by decide)).trans (st_main_v23 V)

theorem after_v72 (V : Valuation τ sig (Elt F)) :
    after ops V (Proc.devRef .tc main_v72) = val_main_v72 (F := F) (arg0 V) (arg1 V) (arg2 V) (arg3 V) (arg4 V) (arg5 V) (arg6 V) (arg7 V) (arg8 V) (arg9 V) (arg10 V) (arg11 V) :=
  (after_ops_stable V main_v72 99 (by decide) (by decide)).trans (st_main_v72 V)

theorem after_v71 (V : Valuation τ sig (Elt F)) :
    after ops V (Proc.devRef .tc main_v71) = val_main_v71 (F := F) (arg0 V) (arg1 V) (arg2 V) (arg3 V) (arg4 V) (arg5 V) (arg6 V) (arg7 V) (arg8 V) (arg9 V) (arg10 V) (arg11 V) (arg12 V) (arg13 V) :=
  (after_ops_stable V main_v71 98 (by decide) (by decide)).trans (st_main_v71 V)

end Cert.ReferenceIdeal.RunVal

end
-- ==== Proof.RefRun.lean ====
import proofs.«411179_j26594437497554_3_alg».proof.Proof.RefStages
import proofs.«411179_j26594437497554_3_alg».proof.Proof.RefKeep

noncomputable section

namespace Cert.ReferenceIdeal.RunVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ)

abbrev out0 (c : Dev nD) : Buf (Elt Ideal) ((c.tc : Thread nD τ).loc main_v71) := val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
abbrev out1 (c : Dev nD) : Buf (Elt Ideal) ((c.tc : Thread nD τ).loc main_v72) := val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
abbrev out2 (c : Dev nD) : Buf (Elt Ideal) ((c.tc : Thread nD τ).loc main_v23) := val_main_v23 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))

abbrev argRefs : List (Ref sig .tc) :=
  [main_arg0, main_arg1, main_arg2, main_arg3, main_arg4, main_arg5, main_arg6, main_arg7, main_arg8, main_arg9,
   main_arg10, main_arg11, main_arg12, main_arg13]

-- The run ends with the three results at their stage functions of the arguments, and the arguments as launched: no operation writes one.
theorem run (ρ : Dev nD → PrngReg) :
    θ_run defs (onTc (τ := τ) (main (F := Ideal))) ⟨m, fun _ => 0, ρ⟩ fun r => ∀ c : Dev nD,
      r.2.mem ((c.tc : Thread nD τ).loc main_v71) = out0 m c
      ∧ r.2.mem ((c.tc : Thread nD τ).loc main_v72) = out1 m c
      ∧ r.2.mem ((c.tc : Thread nD τ).loc main_v23) = out2 m c
      ∧ argRefs.Forall fun a : Ref sig .tc => r.2.mem ((c.tc : Thread nD τ).loc a) = m ((c.tc : Thread nD τ).loc a) :=
  (θ_run defs _ _).mono (fun _ h c =>
    ⟨(h c main_v71).trans (after_v71 (F := Ideal) _), (h c main_v72).trans (after_v72 (F := Ideal) _), (h c main_v23).trans (after_v23 (F := Ideal) _),
     List.forall_iff_forall_mem.mpr fun a ha => (h c a).trans (after_arg _ a ((by decide : ∀ a ∈ argRefs, a ∉ ops_W) a ha))⟩)
    (run_fold (F := Ideal) m ρ)

end Cert.ReferenceIdeal.RunVal

end
-- ==== Proof.FrameR0.lean ====
import proofs.«411179_j26594437497554_3_alg».proof.Proof.Gen.KernelIdeal.Launch
import proofs.«411179_j26594437497554_3_alg».proof.Proof.Gen.KernelIdeal.Skeleton
import proofs.«411179_j26594437497554_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1024 := Rect.unit (s := S1x1024) ![0, 0] S1x1024.size inb_S1x1024_S1x1024_0_0
abbrev r0_1 : Rect S15x2048 := Rect.unit (s := S15x2048) ![0, 0] S15x2048.size inb_S15x2048_S15x2048_0_0
abbrev r0_2 : Rect S1x15 := Rect.unit (s := S1x15) ![0, 0] S1x15.size inb_S1x15_S1x15_0_0
abbrev r0_3 : Rect S15x1024 := Rect.unit (s := S15x1024) ![0, 0] S15x1024.size inb_S15x1024_S15x1024_0_0
abbrev r0_4 : Rect S1024x2048 := Rect.unit (s := S1024x2048) ![0, 0] S1024x2048.size inb_S1024x2048_S1024x2048_0_0

def out0_7 (x0 : Vec F S1x1024 .f32) (x1 : Vec F S1x1024 .f32) (x2 : Vec F S15x1024 .f32) (x3 : Vec F S15x2048 .f32) (x4 : Vec F S1x15 .f32) (x5 : Vec F S1024x2048 .f32) (x6 : Vec F S1x1024 .f32) : Vec F S1x15 .f32 :=
  View.canon [⟨r0_2, k0_pay3 (View.ld x0 r0_0) (View.ld x1 r0_0) (View.ld x3 r0_1) (View.ld x4 r0_2)⟩]

theorem cover0_7 (p0 : Vec F S1x15 .f32) (y : S1x15.Idx) :
    ∃ pc ∈ ([⟨r0_2, p0⟩] : List (View.Piece (Elt F) S1x15 .f32)), y ∈ pc.1.set :=
  View.cover_of_tiled [⟨r0_2, p0⟩] S1x15.size (by rfl) y

def out0_8 (x0 : Vec F S1x1024 .f32) (x1 : Vec F S1x1024 .f32) (x2 : Vec F S15x1024 .f32) (x3 : Vec F S15x2048 .f32) (x4 : Vec F S1x15 .f32) (x5 : Vec F S1024x2048 .f32) (x6 : Vec F S1x1024 .f32) : Vec F S1x1024 .f32 :=
  View.canon [⟨r0_0, k0_pay1 (k0_pay4 (View.ld x0 r0_0) (View.ld x1 r0_0) (View.ld x3 r0_1) (View.ld x4 r0_2) (View.ld x2 r0_3) (View.ld x5 r0_4) (View.ld x6 r0_0)) (Scalar.ofBits .f32 0x00000000#32)⟩]

theorem cover0_8 (p0 : Vec F S1x1024 .f32) (y : S1x1024.Idx) :
    ∃ pc ∈ ([⟨r0_0, p0⟩] : List (View.Piece (Elt F) S1x1024 .f32)), y ∈ pc.1.set :=
  View.cover_of_tiled [⟨r0_0, p0⟩] S1x1024.size (by rfl) y

set_option maxHeartbeats 4000000 in

theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S15x1024 .f32) (harg3 : arg3.IsWhole) (arg4 : Memref sig .tc .vmem S15x2048 .f32) (harg4 : arg4.IsWhole) (arg5 : Memref sig .tc .vmem S1x15 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1x15 .f32) (harg8 : arg8.IsWhole) (arg9 : Memref sig .tc .vmem S1x1024 .f32) (harg9 : arg9.IsWhole)
    (x0 : Vec F S1x1024 .f32) (x1 : Vec F S1x1024 .f32) (x2 : Vec F S15x1024 .f32) (x3 : Vec F S15x2048 .f32) (x4 : Vec F S1x15 .f32) (x5 : Vec F S1024x2048 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.FrameR1.lean ====
import proofs.«411179_j26594437497554_3_alg».proof.Proof.Gen.KernelIdeal.Launch
import proofs.«411179_j26594437497554_3_alg».proof.Proof.Gen.KernelIdeal.Skeleton
import proofs.«411179_j26594437497554_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1024 := Rect.unit (s := S1x1024) ![0, 0] S1x1024.size inb_S1x1024_S1x1024_0_0
abbrev r1_1 : Rect S3072x1024 := Rect.unit (s := S3072x1024) ![0, 0] S3072x1024.size inb_S3072x1024_S3072x1024_0_0
abbrev r1_2 : Rect S1x3072 := Rect.unit (s := S1x3072) ![0, 0] S1x3072.size inb_S1x3072_S1x3072_0_0

def out1_6 (x0 : Vec F S1x1024 .f32) (x1 : Vec F S1x1024 .f32) (x2 : Vec F S3072x1024 .f32) (x3 : Vec F S3072x1024 .f32) (x4 : Vec F S1x3072 .f32) (x5 : Vec F S1x3072 .f32) : Vec F S1x1024 .f32 :=
  View.canon [⟨r1_0, k1_pay1 (View.ld x0 r1_0) (View.ld x1 r1_0) (View.ld x2 r1_1) (View.ld x3 r1_1) (View.ld x4 r1_2) (View.ld x5 r1_2)⟩]

theorem cover1_6 (p0 : Vec F S1x1024 .f32) (y : S1x1024.Idx) :
    ∃ pc ∈ ([⟨r1_0, p0⟩] : List (View.Piece (Elt F) S1x1024 .f32)), y ∈ pc.1.set :=
  View.cover_of_tiled [⟨r1_0, p0⟩] S1x1024.size (by rfl) y

set_option maxHeartbeats 1000000 in

theorem sound_kernel1 (c : Dev nD) (E : Set ℕ) (i : grid1.Coords) (arg1 : Memref sig .tc .vmem S1x1024 .f32) (harg1 : arg1.IsWhole) (arg2 : Memref sig .tc .vmem S1x1024 .f32) (harg2 : arg2.IsWhole) (arg3 : Memref sig .tc .vmem S3072x1024 .f32) (harg3 : arg3.IsWhole) (arg4 : Memref sig .tc .vmem S3072x1024 .f32) (harg4 : arg4.IsWhole) (arg5 : Memref sig .tc .vmem S1x3072 .f32) (harg5 : arg5.IsWhole) (arg6 : Memref sig .tc .vmem S1x3072 .f32) (harg6 : arg6.IsWhole) (arg7 : Memref sig .tc .vmem S1x1024 .f32) (harg7 : arg7.IsWhole)
    (x0 : Vec F S1x1024 .f32) (x1 : Vec F S1x1024 .f32) (x2 : Vec F S3072x1024 .f32) (x3 : Vec F S3072x1024 .f32) (x4 : Vec F S1x3072 .f32) (x5 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameR2.lean ====
import proofs.«411179_j26594437497554_3_alg».proof.Proof.Gen.KernelIdeal.Launch
import proofs.«411179_j26594437497554_3_alg».proof.Proof.Gen.KernelIdeal.Skeleton
import proofs.«411179_j26594437497554_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev zeroWord : Elt F .f32 := Scalar.ofBits .f32 0#32

def wblk2 (c : Dev nD) (t : Fin cfg2.N) : Vec F S3072x1024 .f32 :=
  win2_1.fill (grid2.coords t) (fun _ => zeroWord) (iblk2 V c 1 t)

def bblk2 (c : Dev nD) (t : Fin cfg2.N) : Vec F S1x3072 .f32 :=
  win2_2.fill (grid2.coords t) (fun _ => zeroWord) (iblk2 V c 2 t)

abbrev r2_0 : Rect S1x3072 := Rect.unit (s := S1x3072) ![0, 0] S1x3072.size inb_S1x3072_S1x3072_0_0

def out2_3 (x0 : Vec F S1x1024 .f32) (x1 : Vec F S3072x1024 .f32) (x2 : Vec F S1x3072 .f32) : Vec F S1x3072 .f32 :=
  View.canon [⟨r2_0, k2_pay1 (View.ld x0 (Rect.unit (s := S1x1024) ![0, 0] S1x1024.size inb_S1x1024_S1x1024_0_0)) (View.ld x1 (Rect.unit (s := S3072x1024) ![0, 0] S3072x1024.size inb_S3072x1024_S3072x1024_0_0)) (View.ld x2 r2_0)⟩]

theorem cover2_3 (p0 : Vec F S1x3072 .f32) (y : S1x3072.Idx) :
    ∃ pc ∈ ([⟨r2_0, p0⟩] : List (View.Piece (Elt F) S1x3072 .f32)), y ∈ pc.1.set :=
  View.cover_of_tiled [⟨r2_0, p0⟩] S1x3072.size (by rfl) y

set_option maxHeartbeats 1000000 in

theorem sound_kernel2 (c : Dev nD) (E : Set ℕ) (i : grid2.Coords)
    (arg1 : Memref sig .tc .vmem S1x1024 .f32) (harg1 : arg1.IsWhole)
    (arg2 : Memref sig .tc .vmem S3072x1024 .f32) (harg2 : arg2.IsWhole)
    (arg3 : Memref sig .tc .vmem S1x3072 .f32) (harg3 : arg3.IsWhole)
    (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => wblk2 V c t
    | ⟨2, _⟩ => bblk2 V c t
    | ⟨3, _⟩ => out2_3 (iblk2 V c 0 t) (wblk2 V c t) (bblk2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = wblk2 V c t := by dsimp only [dat2]
theorem after2_2 (c : Dev nD) (t : Fin cfg2.N) : (dat2 V c).after 2 t = bblk2 V c t := by dsimp only [dat2]
theorem after2_3 (c : Dev nD) (t : Fin cfg2.N) :
    (dat2 V c).after 3 t = out2_3 (iblk2 V c 0 t) (wblk2 V c t) (bblk2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) :
    (dat2 V c).before 1 t d = win2_1.fill (grid2.coords t) d (iblk2 V c 1 t) := by
  rw [(dat2 V c).before_fetched 1 t (fetch2_1 t) d]; unfold Dat.fetched Dat.blockOf iblk2; rw [A_eq2]; try rfl

theorem before2_2 (c : Dev nD) (t : Fin cfg2.N) (d) :
    (dat2 V c).before 2 t d = win2_2.fill (grid2.coords t) d (iblk2 V c 2 t) := by
  rw [(dat2 V c).before_fetched 2 t (fetch2_2 t) d]; unfold Dat.fetched Dat.blockOf iblk2; rw [A_eq2]; try rfl

def K2Local (F : FTy → Type) [FloatOps F] : Prop :=
  ∀ (x0 : Vec F S1x1024 .f32) (x1 x1' : Vec F S3072x1024 .f32) (x2 x2' : Vec F S1x3072 .f32) (j : S1x3072.Idx),
    (∀ i : S3072x1024.Idx, (i 0).val = (j 1).val → x1 i = x1' i) → x2 j = x2' j →
    k2_pay1 x0 x1 x2 j = k2_pay1 x0 x1' x2' j

theorem out2_3_eq (x0 : Vec F S1x1024 .f32) (x1 : Vec F S3072x1024 .f32) (x2 : Vec F S1x3072 .f32) :
    out2_3 x0 x1 x2 = k2_pay1 x0 x1 x2 := by
  have hz : (![0, 0] : Fin 2 → Nat) = fun _ => 0 := funext fun a => by fin_cases a <;> rfl
  unfold out2_3
  rw [View.canon_unit_zero hz, View.ld_unit_zero hz, View.ld_unit_zero hz, View.ld_unit_zero hz]

theorem fill_congr_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

theorem xsize2_1_0 (t : Fin cfg2.N) : win2_1.xsize (grid2.coords t) 0 = win2_3.xsize (grid2.coords t) 1 := rfl
theorem xsize2_2 (t : Fin cfg2.N) (a : Fin 2) : win2_2.xsize (grid2.coords t) a = win2_3.xsize (grid2.coords t) a := rfl

theorem cut_out2_3 (hloc : K2Local F) (t : Fin cfg2.N) (x0 : Vec F S1x1024 .f32)
    (d1 d1' : Vec F S3072x1024 .f32) (g1 : (win2_1.xblock (grid2.coords t)).Idx → Elt F .f32)
    (d2 d2' : Vec F S1x3072 .f32) (g2 : (win2_2.xblock (grid2.coords t)).Idx → Elt F .f32) :
    win2_3.cut (grid2.coords t) (out2_3 x0 (win2_1.fill (grid2.coords t) d1 g1) (win2_2.fill (grid2.coords t) d2 g2))
      = win2_3.cut (grid2.coords t) (out2_3 x0 (win2_1.fill (grid2.coords t) d1' g1) (win2_2.fill (grid2.coords t) d2' g2)) := by
  funext j
  rw [out2_3_eq, out2_3_eq]
  refine hloc _ _ _ _ _ _ (fun i hi => ?_) ?_
  · refine fill_congr_moved win2_1 _ _ _ _ ((win2_1.moved_iff _ i).mpr fun a => ?_)
    match a with
    | ⟨0, _⟩ => exact (show (i 0).val < win2_3.xsize (grid2.coords t) 1 from hi.trans_lt (j 1).isLt)
    | ⟨1, _⟩ => exact (show (i 1).val < 1024 from (i 1).isLt)
  · exact fill_congr_moved win2_2 _ _ _ _ ((win2_2.moved_iff _ _).mpr fun a => (xsize2_2 t a) ▸ (j a).isLt)

theorem body_obligation2 (hloc : K2Local F) (c : Dev nD) :
    BodyObligationLoose (dat2 (F := F) V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]

  have e3 : (win2 3).fill (grid2.coords t)
      (out2_3 (iblk2 V c 0 t) (win2_1.fill (grid2.coords t) d1 (iblk2 V c 1 t)) (win2_2.fill (grid2.coords t) d2 (iblk2 V c 2 t)))
      ((win2 3).cut (grid2.coords t) ((dat2 V c).after 3 t))
      = out2_3 (iblk2 V c 0 t) (win2_1.fill (grid2.coords t) d1 (iblk2 V c 1 t)) (win2_2.fill (grid2.coords t) d2 (iblk2 V c 2 t)) := by
    rw [after2_3]; unfold wblk2 bblk2
    exact win2_3.fill_congr_cut (grid2.coords t) (cut_out2_3 hloc t (iblk2 V c 0 t) d1 (fun _ => zeroWord) (iblk2 V c 1 t) d2 (fun _ => zeroWord) (iblk2 V c 2 t))
  iapply (sound_kernel2 c Set.univ (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after2_0]; iexact H0
  isplitl [H1]
  · iexists d1
    rw [after2_1]; unfold wblk2
    rw [show win2_1.cut (grid2.coords t) (win2_1.fill (grid2.coords t) (fun _ => zeroWord) (iblk2 V c 1 t)) = iblk2 V c 1 t from
      win2_1.cut_fill _ _ _]
    iexact H1
  isplitl [H2]
  · iexists d2
    rw [after2_2]; unfold bblk2
    rw [show win2_2.cut (grid2.coords t) (win2_2.fill (grid2.coords t) (fun _ => zeroWord) (iblk2 V c 2 t)) = iblk2 V c 2 t from
      win2_2.cut_fill _ _ _]
    iexact H2
  · iexists (out2_3 (iblk2 V c 0 t) (win2_1.fill (grid2.coords t) d1 (iblk2 V c 1 t)) (win2_2.fill (grid2.coords t) d2 (iblk2 V c 2 t)))
    rw [e3]
    iexact H3

def forgets2 : Fin cfg2.W → Bool := fun w => w.val == 3

theorem body_obligation2_fgt (c : Dev nD) :
    BodyObligationLoose (dat2 (F := F) V c) (defs₀ (F := F)) Variants.none () Set.univ forgets2 := fun t => by
  rw [bigSep_W2, bigSep_W2]
  simp only [show forgets2 (0 : Fin 4) = false from rfl, show forgets2 (1 : Fin 4) = false from rfl,
    show forgets2 (2 : Fin 4) = false from rfl, show forgets2 (3 : Fin 4) = true from rfl]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%X3, H3⟩⟩
  rw [before2_0 V c t d0, before2_1 V c t d1, before2_2 V c t d2]
  iapply (sound_kernel2 c Set.univ (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (iblk2 V c 0 t)
    (win2_1.fill (grid2.coords t) d1 (iblk2 V c 1 t)) (win2_2.fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after2_0]; iexact H0
  isplitl [H1]
  · iexists d1
    rw [after2_1]; unfold wblk2
    rw [show win2_1.cut (grid2.coords t) (win2_1.fill (grid2.coords t) (fun _ => zeroWord) (iblk2 V c 1 t)) = iblk2 V c 1 t from
      win2_1.cut_fill _ _ _]
    iexact H1
  isplitl [H2]
  · iexists d2
    rw [after2_2]; unfold bblk2
    rw [show win2_2.cut (grid2.coords t) (win2_2.fill (grid2.coords t) (fun _ => zeroWord) (iblk2 V c 2 t)) = iblk2 V c 2 t from
      win2_2.cut_fill _ _ _]
    iexact H2
  · iexists _; iexact H3

theorem flushed2_3_apply (c : Dev nD) (t : Fin cfg2.N) (j : (win2_3.xblock (grid2.coords t)).Idx) :
    (cfg2.win 3).cut (cfg2.grid.coords t) ((dat2 V c).after 3 t) j
      = k2_pay1 (iblk2 V c 0 t) (wblk2 V c t) (bblk2 V c t) (win2_3.xinj (grid2.coords t) j) := by
  rw [after2_3, out2_3_eq]

theorem wblk2_xinj (c : Dev nD) (t : Fin cfg2.N) (i : (win2_1.xblock (grid2.coords t)).Idx) :
    wblk2 V c t (win2_1.xinj (grid2.coords t) i) = iblk2 V c 1 t i := win2_1.fill_xinj _ _ _ i
theorem bblk2_xinj (c : Dev nD) (t : Fin cfg2.N) (i : (win2_2.xblock (grid2.coords t)).Idx) :
    bblk2 V c t (win2_2.xinj (grid2.coords t) i) = iblk2 V c 2 t i := win2_2.fill_xinj _ _ _ i

theorem rhs_row (j : S1x3072.Idx) (k : dot_S1x1024_S1024x3072_S1x3072_1_0_0_1_n_n.contr.Idx) :
    ((transposes_S3072x1024_p1_0_S1024x3072.src (dot_S1x1024_S1024x3072_S1x3072_1_0_0_1_n_n.rhsIdx j k)) 0).val = (j 1).val := rfl

theorem rhs_congr {F : FTy → Type} [FloatOps F] (x1 x1' : FVec F S3072x1024 .f32) (j : S1x3072.Idx)
    (h1 : ∀ i : S3072x1024.Idx, (i 0).val = (j 1).val → x1 i = x1' i)
    (k : dot_S1x1024_S1024x3072_S1x3072_1_0_0_1_n_n.contr.Idx) :
    transpose S1024x3072 [1, 0] (truncf .bf16 x1 bitsLt_bf16_f32) transposes_S3072x1024_p1_0_S1024x3072 (dot_S1x1024_S1024x3072_S1x3072_1_0_0_1_n_n.rhsIdx j k)
      = transpose S1024x3072 [1, 0] (truncf .bf16 x1' bitsLt_bf16_f32) transposes_S3072x1024_p1_0_S1024x3072 (dot_S1x1024_S1024x3072_S1x3072_1_0_0_1_n_n.rhsIdx j k) := by
  unfold transpose truncf
  rw [h1 _ (rhs_row j k)]

theorem k2Local_ideal : K2Local Ideal := by
  intro x0 x1 x1' x2 x2' j h1 h2
  unfold k2_pay1
  simp only [matmul]
  rw [ValueIdx.addf_apply, ValueIdx.addf_apply, Ideal.matmul_apply, Ideal.matmul_apply, shapeCast_self x2, shapeCast_self x2', h2]
  congr 2
  exact Finset.sum_congr rfl fun k _ => by rw [rhs_congr (F := Ideal) x1 x1' j h1 k]

end Cert.KernelIdeal.Hand

end
-- ==== Proof.FrameRun.lean ====
import proofs.«411179_j26594437497554_3_alg».proof.Proof.Gen.KernelIdeal.Launch
import proofs.«411179_j26594437497554_3_alg».proof.Proof.Gen.KernelIdeal.Skeleton
import proofs.«411179_j26594437497554_3_alg».proof.Proof.Gen.KernelIdeal.Points
import proofs.«411179_j26594437497554_3_alg».proof.Proof.FrameR0
import proofs.«411179_j26594437497554_3_alg».proof.Proof.FrameR1
import proofs.«411179_j26594437497554_3_alg».proof.Proof.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)

abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

abbrev W6 : Dev nD → Valuation τ sig (Elt F) := fun c => StableHlo.after hostOps3 (W5 m c)

abbrev W7 : Dev nD → Valuation τ sig (Elt F) := fun c => StableHlo.after hostOps3_1 (W6 m c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 (hloc : K2Local F) : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V4 m) hloc c
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs (hloc : K2Local F) : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m),
    .region (reg2 m hloc),
    .host (hseg hostOps3 hostOps3_sub hostOps3_fresh (W5 m)),
    .host (hseg hostOps3_1 hostOps3_1_sub hostOps3_1_fresh (W6 m)) ]

theorem main_run (hloc : K2Local F) (c : Dev nD) : main (F := F) c = Pipeline.Seg.run (segs m hloc) := (main_chain c).trans (by chain_rfl)

set_option backward.isDefEq.respectTransparency.types false in

theorem run_all (hloc : K2Local F) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m hloc)
    (fun c Q => by rw [main_run m hloc c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.HostKeep.lean ====
import proofs.«411179_j26594437497554_3_alg».proof.Proof.Gen.KernelIdeal.Regions

noncomputable section

namespace Cert.KernelIdeal.Keep

open Cert.KernelIdeal Cert.KernelIdeal.Gen
open Idealize.ShloMosaic Idealize.ShloMosaic.TcCoe Idealize.SL.Sem

variable {F : FTy → Type} [FloatOps F]

theorem keep0 (V : Valuation τ sig (Elt F)) (r : Ref sig .tc) (h : r ∉ hostOps0_W) :
    StableHlo.after hostOps0 V r = V r :=
  StableHlo.after_of_writes_sub hostOps0 _ hostOps0_writes h

theorem keep0_1 (V : Valuation τ sig (Elt F)) (r : Ref sig .tc) (h : r ∉ hostOps0_1_W) :
    StableHlo.after hostOps0_1 V r = V r :=
  StableHlo.after_of_writes_sub hostOps0_1 _ hostOps0_1_writes h

theorem keep3 (V : Valuation τ sig (Elt F)) (r : Ref sig .tc) (h : r ∉ hostOps3_W) :
    StableHlo.after hostOps3 V r = V r :=
  StableHlo.after_of_writes_sub hostOps3 _ hostOps3_writes h

theorem keep3_1 (V : Valuation τ sig (Elt F)) (r : Ref sig .tc) (h : r ∉ hostOps3_1_W) :
    StableHlo.after hostOps3_1 V r = V r :=
  StableHlo.after_of_writes_sub hostOps3_1 _ hostOps3_1_writes h

end Cert.KernelIdeal.Keep

end
-- ==== Proof.FrameRunR.lean ====
import proofs.«411179_j26594437497554_3_alg».proof.Proof.Gen.KernelIdeal.Launch
import proofs.«411179_j26594437497554_3_alg».proof.Proof.Gen.KernelIdeal.Skeleton
import proofs.«411179_j26594437497554_3_alg».proof.Proof.Gen.KernelIdeal.Points
import proofs.«411179_j26594437497554_3_alg».proof.Proof.FrameRun
import proofs.«411179_j26594437497554_3_alg».proof.Proof.HostKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Keep

variable (m : (ℓ : Loc nD τ sig) → Buf (Elt F) ℓ) (ρ : Dev nD → PrngReg)

def rdats : (p : Fin 3) → (c : Dev nD) → Pipeline.RDat τ (Elt F) Unit ℕ (UR sig nD τ) ℕ (Pipeline.pin (pcfgs (F := F)) adm p) c
  | ⟨0, _⟩ => fun c => (dat0 (V2 m) c).toR
  | ⟨1, _⟩ => fun c => (dat1 (V3 m) c).toR
  | ⟨2, _⟩ => fun c => (dat2 (V4 m) c).toRForget forgets2

abbrev Arrs2 (c : Dev nD) : Type := (w : Fin cfg2.W) → Buf (Elt F) ((cfg2.win w).arr.view.loc (c : Thread nD τ))

def Known2 (c : Dev nD) (A : Arrs2 (F := F) c) : Prop := ∀ w, forgets2 w = false → A w = (dat2 (V4 m) c).arrAt w cfg2.N

abbrev X5 (c : Dev nD) (A : Arrs2 (F := F) c) : Valuation τ sig (Elt F) := Pipeline.withArrays spec2 c (W4 m c) A
abbrev X6 (c : Dev nD) (A : Arrs2 (F := F) c) : Valuation τ sig (Elt F) := StableHlo.after hostOps3 (X5 m c A)
abbrev X7 (c : Dev nD) (A : Arrs2 (F := F) c) : Valuation τ sig (Elt F) := StableHlo.after hostOps3_1 (X6 m c A)

set_option backward.isDefEq.respectTransparency.types false in

def hsegX (ops : List (HloOp τ sig (Elt F))) (hsub : ops.Forall fun op => op.bufs ⊆ StableHlo.tcRefs τ sig)
    (hfresh : ops.Forall fun op => op.fresh = ∅) (W : (c : Dev nD) → Arrs2 (F := F) c → Valuation τ sig (Elt F)) :
    Pipeline.HostSeg (Name := ℕ) (U := UR sig nD τ) (pcfgs (F := F)) defs₀ 𝒱₀ L lv where
  prog := StableHlo.seq ops
  pre c := iprop(∃ A : Arrs2 (F := F) c, ⌜Known2 m c A⌝ ∗ StableHlo.held (c : Thread nD τ) (Pipeline.ucRefs τ sig) (W c A) ∗ R c)
  post c := iprop(∃ A : Arrs2 (F := F) c, ⌜Known2 m c A⌝ ∗ StableHlo.held (c : Thread nD τ) (Pipeline.ucRefs τ sig) (StableHlo.after ops (W c A)) ∗ R c)
  run c {β} k K := by
    iintro ⟨Hk, Hbd, ⟨%A, %hA, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (W c A)
    iapply hseq $$ [Hbd Hh]
    · isplitl [Hbd] <;> iassumption
    iintro ⟨Hbd, Hh⟩
    iapply Hk
    isplitl [Hbd]; · iexact Hbd
    iexists A
    isplitr; · ipureintro; exact hA
    isplitl [Hh] <;> iassumption

set_option backward.isDefEq.respectTransparency.types false in
def regR0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose.toR
  hwaits := Pipeline.RDat.hwaits_of_owed_zero _ _ _ _ L lv 0 fun _ _ => rfl
  pre := (reg0 m).pre
  post := (reg0 m).post
  X := (reg0 m).X
  Y := (reg0 m).Y
  Z := (reg0 m).Z
  hentry := (reg0 m).hentry
  hin := (reg0 m).hin
  hout := (reg0 m).hout
  hexit c := (sep_mono (Entails.of_eq ((dat0 (V2 m) c).toR_arraysAt_eq cfg0.N)) .rfl).trans ((reg0 m).hexit c)

set_option backward.isDefEq.respectTransparency.types false in
def regR1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose.toR
  hwaits := Pipeline.RDat.hwaits_of_owed_zero _ _ _ _ L lv 1 fun _ _ => rfl
  pre := (reg1 m).pre
  post := (reg1 m).post
  X := (reg1 m).X
  Y := (reg1 m).Y
  Z := (reg1 m).Z
  hentry := (reg1 m).hentry
  hin := (reg1 m).hin
  hout := (reg1 m).hout
  hexit c := (sep_mono (Entails.of_eq ((dat1 (V3 m) c).toR_arraysAt_eq cfg1.N)) .rfl).trans ((reg1 m).hexit c)

set_option backward.isDefEq.respectTransparency.types false in

def regR2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2_fgt (V4 m) c).toRForget
  hwaits := Pipeline.RDat.hwaits_of_owed_zero _ _ _ _ L lv 2 fun _ _ => rfl
  pre c := iprop(StableHlo.held (c : Thread nD τ) (Pipeline.ucRefs τ sig) (W4 m c) ∗ R c)
  post c := iprop(∃ A : Arrs2 (F := F) c, ⌜Known2 m c A⌝ ∗ StableHlo.held (c : Thread nD τ) (Pipeline.ucRefs τ sig) (X5 m c A) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.RDat.arrays_of_unscopedBufs (p := 2) (pcfgs (F := F)) adm (rdats m) launch2.win launch2.arr_whole c
      ((dat2 (V4 m) c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    unfold Pipeline.RDat.arraysAt
    rw [bigSep_W2]
    iintro ⟨⟨⟨%A0, %h0, H0⟩, ⟨%A1, %h1, H1⟩, ⟨%A2, %h2, H2⟩, ⟨%A3, %h3, H3⟩⟩, HO, HY, Hrest⟩

    let A : Arrs2 (F := F) c := fun w => match w with
      | ⟨0, _⟩ => A0 | ⟨1, _⟩ => A1 | ⟨2, _⟩ => A2 | ⟨3, _⟩ => A3
    have hK : Known2 m c A := fun w hw => match w, hw with
      | ⟨0, _⟩, _ => ((dat2 (V4 m) c).toRForget_arrAt_iff (fgt := forgets2) (w := 0) rfl cfg2.N A0).mp h0
      | ⟨1, _⟩, _ => ((dat2 (V4 m) c).toRForget_arrAt_iff (fgt := forgets2) (w := 1) rfl cfg2.N A1).mp h1
      | ⟨2, _⟩, _ => ((dat2 (V4 m) c).toRForget_arrAt_iff (fgt := forgets2) (w := 2) rfl cfg2.N A2).mp h2
      | ⟨3, _⟩, hw => absurd hw (by simp [forgets2])
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (fun b => X5 m c A b) A
      (fun w => (Pipeline.withArrays_arr spec2 launch2.win.arr_inj c _ _ w).symm)
      (fun b hb => Pipeline.withArrays_of_ne spec2 c _ _ b fun w e => hb (Finset.mem_image.mpr ⟨w, Finset.mem_univ _, e⟩))
    rw [Pipeline.unscopedBufs_held] at hjoin
    unfold Pipeline.Dat.arrays at hjoin
    rw [bigSep_W2] at hjoin
    imodintro
    iexists A
    isplitr; · ipureintro; exact hK
    isplitl [H0 H1 H2 H3 Hrest]
    · iapply hjoin
      isplitl [H0 H1 H2 H3]
      · isplitl [H0]; · iexact H0
        isplitl [H1]; · iexact H1
        isplitl [H2]; · iexact H2
        iexact H3
      iexact Hrest
    isplitl [HY]; · iexact HY
    unfold Pipeline.RDat.owesAt Pipeline.owesWithin
    icases HO with ⟨%W, -, HO⟩; iexists W; iexact HO

abbrev segsR : List (Pipeline.RDat.Seg (pcfgs (F := F)) adm (rdats m) () defs₀ 𝒱₀ L lv) :=
  [ .host (hseg hostOps0 hostOps0_sub hostOps0_fresh (W0 m)),
    .host (hseg hostOps0_1 hostOps0_1_sub hostOps0_1_fresh (W1 m)),
    .region (regR0 m),
    .region (regR1 m),
    .region (regR2 m),
    .host (hsegX m hostOps3 hostOps3_sub hostOps3_fresh (X5 m)),
    .host (hsegX m hostOps3_1 hostOps3_1_sub hostOps3_1_fresh (X6 m)) ]

theorem main_runR (c : Dev nD) : main (F := F) c = Pipeline.RDat.Seg.run (segsR m) := (main_chain c).trans (by chain_rfl)

set_option backward.isDefEq.respectTransparency.types false in

theorem run_some : θ_run defs (onTc (τ := τ) (main (F := F))) ⟨m, fun _ => 0, ρ⟩ (fun r => ∀ c : Dev nD,
      ∃ A : Arrs2 (F := F) c, Known2 m c A ∧ ∀ b ∈ Pipeline.ucRefs τ sig, r.2.mem (((c : Thread nD τ)).1, b) = X7 m c A b) :=
  Pipeline.RDat.θ_run_regions_kit (pcfgs (F := F)) adm (rdats m) () cellOf_inj emb₁ defs₀ 𝒱₀ L lv m ρ main (segsR m)
    (fun c Q => by rw [main_runR m c])
    (by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ A : Arrs2 (F := F) c, ⌜Known2 m c A⌝ ∗ StableHlo.held (c : Thread nD τ) (Pipeline.ucRefs τ sig) (X7 m c A) ∗ ∃ r, prngReg c r))
    (hch := ⟨fun _ => .rfl, fun _ => .rfl, fun _ => .rfl, fun _ => .rfl, fun _ => .rfl, fun _ => .rfl, fun _ => .rfl,
      fun c => by
        show iprop(∃ A : Arrs2 (F := F) c, ⌜Known2 m c A⌝ ∗ StableHlo.held (c : Thread nD τ) (Pipeline.ucRefs τ sig) (X7 m c A) ∗ R c)
          ⊢ iprop((∃ A : Arrs2 (F := F) c, ⌜Known2 m c A⌝ ∗ StableHlo.held (c : Thread nD τ) (Pipeline.ucRefs τ sig) (X7 m c A) ∗ ∃ r, prngReg c r)
              ∗ ∃ W, owes (c : Thread nD τ) (0 : CellTallies nD τ sig Unit) W)
        iintro ⟨%A, %hA, Hh, ⟨Hp, HO⟩⟩
        isplitl [Hh Hp]
        · iexists A
          isplitr; · ipureintro; exact hA
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A : Arrs2 (F := F) c, Known2 m c A ∧ ∀ b ∈ Pipeline.ucRefs τ sig, s.mem (((c : Thread nD τ)).1, b) = X7 m c A b)
    (hfin := fun c s' => by
      iintro ⟨⟨%A, %hA, Hh, -⟩, HSI⟩
      unfold StableHlo.held
      ihave Hr := (pointsTo_read_all (Pipeline.ucRefs τ sig) (fun b => (((c : Thread nD τ)).1, b)) (X7 m c A) s') $$ [Hh HSI]
      · isplitl [Hh] <;> iassumption
      icases Hr with ⟨%h, HSI⟩
      imodintro
      isplitr
      · ipureintro; exact ⟨A, hA, h⟩
      · iexact HSI)
    (hQ := fun s h c => h c)

theorem W3_keep (c : Dev nD) (r : Ref sig .tc) (h7 : r ≠ main_v7_0) (h8 : r ≠ main_v7_1) : W3 m c r = W2 m c r := by
  by_cases h : ∃ w, Pipeline.arrRef spec0 w = r
  · obtain ⟨w, rfl⟩ := h
    have hin : (cfg0.win w).isOut = false := by
      match w with
      | ⟨0, _⟩ => rfl | ⟨1, _⟩ => rfl | ⟨2, _⟩ => rfl | ⟨3, _⟩ => rfl | ⟨4, _⟩ => rfl | ⟨5, _⟩ => rfl | ⟨6, _⟩ => rfl
      | ⟨7, _⟩ => exact absurd rfl h7
      | ⟨8, _⟩ => exact absurd rfl h8
    exact (W3_arr m c w).trans (((dat0 (V2 m) c).arrAt_in w hin _).trans (A_eq0 (V2 m) c w))
  · exact W3_of_ne m c r fun w e => h ⟨w, e⟩

theorem W4_keep (c : Dev nD) (r : Ref sig .tc) (h8 : r ≠ main_v8) : W4 m c r = W3 m c r := by
  by_cases h : ∃ w, Pipeline.arrRef spec1 w = r
  · obtain ⟨w, rfl⟩ := h
    have hin : (cfg1.win w).isOut = false := by
      match w with
      | ⟨0, _⟩ => rfl | ⟨1, _⟩ => rfl | ⟨2, _⟩ => rfl | ⟨3, _⟩ => rfl | ⟨4, _⟩ => rfl | ⟨5, _⟩ => rfl
      | ⟨6, _⟩ => exact absurd rfl h8
    exact (W4_arr m c w).trans (((dat1 (V3 m) c).arrAt_in w hin _).trans (A_eq1 (V3 m) c w))
  · exact W4_of_ne m c r fun w e => h ⟨w, e⟩

theorem X5_keep (c : Dev nD) (A : Arrs2 (F := F) c) (hA : Known2 m c A) (r : Ref sig .tc) (h9 : r ≠ main_v9) :
    X5 m c A r = W4 m c r := by
  by_cases h : ∃ w, Pipeline.arrRef spec2 w = r
  · obtain ⟨w, rfl⟩ := h
    have hin : (cfg2.win w).isOut = false ∧ forgets2 w = false := by
      match w with
      | ⟨0, _⟩ => exact ⟨rfl, rfl⟩ | ⟨1, _⟩ => exact ⟨rfl, rfl⟩ | ⟨2, _⟩ => exact ⟨rfl, rfl⟩
      | ⟨3, _⟩ => exact absurd rfl h9
    exact (Pipeline.withArrays_arr spec2 launch2.win.arr_inj c _ _ w).trans
      ((hA w hin.2).trans (((dat2 (V4 m) c).arrAt_in w hin.1 _).trans (A_eq2 (V4 m) c w)))
  · exact Pipeline.withArrays_of_ne spec2 c _ _ r fun w e => h ⟨w, e⟩

abbrev argRefs : List (Ref sig .tc) :=
  [main_arg0, main_arg1, main_arg2, main_arg3, main_arg4, main_arg5, main_arg6, main_arg7, main_arg8, main_arg9,
   main_arg10, main_arg11, main_arg12, main_arg13]

-- No host operation writes an argument, no region has one as a result, and none is scoped.
theorem args_clear : ∀ a ∈ argRefs, (a ∉ hostOps0_W ∧ a ∉ hostOps0_1_W ∧ a ∉ hostOps3_W ∧ a ∉ hostOps3_1_W ∧
    a ≠ main_v7_0 ∧ a ≠ main_v7_1 ∧ a ≠ main_v8 ∧ a ≠ main_v9) ∧ ¬ (Proc.devRef .tc a : DevRef τ sig).isScoped := by
  decide

theorem X7_arg (c : Dev nD) (A : Arrs2 (F := F) c) (hA : Known2 m c A) (r : Ref sig .tc) (hr : r ∈ argRefs) :
    X7 m c A r = m ((c : Dev nD), (r : DevRef τ sig)) :=
  have ⟨⟨h1, h2, h3, h4, h5, h6, h7, h8⟩, _⟩ := args_clear r hr
  (keep3_1 _ r h4).trans <| (keep3 _ r h3).trans <| (X5_keep m c A hA r h8).trans <| (W4_keep m c r h7).trans <|
    (W3_keep m c r h5 h6).trans <| (keep0_1 _ r h2).trans <| (keep0 _ r h1).trans rfl

-- At any float instance every run ends, nothing faulting, with every argument array as launched.
theorem frame_args : θ_run defs (onTc (τ := τ) (main (F := F))) ⟨m, fun _ => 0, ρ⟩ (fun r => ∀ c : Dev nD,
      argRefs.Forall fun a : Ref sig .tc => r.2.mem (((c : Thread nD τ)).1, (a : DevRef τ sig)) = m ((c : Dev nD), (a : DevRef τ sig))) :=
  (θ_run defs _ _).mono (fun r h c => List.forall_iff_forall_mem.mpr fun a ha => by
    obtain ⟨A, hA, hb⟩ := h c
    exact (hb _ (mem_uc a (args_clear a ha).2)).trans (X7_arg m c A hA a ha)) (run_some m ρ)

end Cert.KernelIdeal.Hand

end
-- ==== Proof.HostIn.lean ====
import proofs.«411179_j26594437497554_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostIn

open Cert.KernelIdeal Cert.KernelIdeal.Gen Idealize.ShloMosaic Idealize.ShloMosaic.TcCoe Idealize.ShloMosaic.ValueIdx

theorem v1_eq (V : Valuation τ sig (Elt Ideal)) :
    (StableHlo.after hostOps0_1 V (Proc.devRef .tc main_v1) : S1x1024.Idx → Elt Ideal .f32)
      = shapeCast S1x1024 (V (Proc.devRef .tc main_arg1) : S1x1x1024.Idx → Elt Ideal .f32) shapeCasts_S1x1x1024_S1x1024 := by
  dsimp only [hostOps0_1]
  after_results
  rfl

theorem v1_apply (V : Valuation τ sig (Elt Ideal)) (k : Fin 1024) :
    (StableHlo.after hostOps0_1 V (Proc.devRef .tc main_v1) : S1x1024.Idx → Elt Ideal .f32) (ix2 0 k)
      = (V (Proc.devRef .tc main_arg1) : S1x1x1024.Idx → Elt Ideal .f32) (ix3 0 0 k) := by
  rw [v1_eq]
  exact shapeCast_1ab_ab_apply _ _ _ _

theorem v2_eq (V : Valuation τ sig (Elt Ideal)) :
    (StableHlo.after hostOps0_1 V (Proc.devRef .tc main_v2) : S1x15.Idx → Elt Ideal .f32)
      = shapeCast S1x15 (V (Proc.devRef .tc main_arg5) : S15.Idx → Elt Ideal .f32) shapeCasts_S15_S1x15 := by
  dsimp only [hostOps0_1]
  after_results
  rfl

theorem v2_apply (V : Valuation τ sig (Elt Ideal)) (j : Fin 15) :
    (StableHlo.after hostOps0_1 V (Proc.devRef .tc main_v2) : S1x15.Idx → Elt Ideal .f32) (ix2 0 j)
      = (V (Proc.devRef .tc main_arg5) : S15.Idx → Elt Ideal .f32) (ix1 j) := by
  rw [v2_eq]
  exact shapeCast_a_1a_apply _ _ _ _

theorem v3_eq (V : Valuation τ sig (Elt Ideal)) :
    (StableHlo.after hostOps0_1 V (Proc.devRef .tc main_v3) : S1x1024.Idx → Elt Ideal .f32)
      = shapeCast S1x1024 (V (Proc.devRef .tc main_arg7) : S1024.Idx → Elt Ideal .f32) shapeCasts_S1024_S1x1024 := by
  dsimp only [hostOps0_1]
  after_results
  rfl

theorem v3_apply (V : Valuation τ sig (Elt Ideal)) (n : Fin 1024) :
    (StableHlo.after hostOps0_1 V (Proc.devRef .tc main_v3) : S1x1024.Idx → Elt Ideal .f32) (ix2 0 n)
      = (V (Proc.devRef .tc main_arg7) : S1024.Idx → Elt Ideal .f32) (ix1 n) := by
  rw [v3_eq]
  exact shapeCast_a_1a_apply _ _ _ _

theorem v4_eq (V : Valuation τ sig (Elt Ideal)) :
    (StableHlo.after hostOps0_1 V (Proc.devRef .tc main_v4) : S1x3072.Idx → Elt Ideal .f32)
      = shapeCast S1x3072 (V (Proc.devRef .tc main_arg10) : S3072.Idx → Elt Ideal .f32) shapeCasts_S3072_S1x3072 := by
  dsimp only [hostOps0_1]
  after_results
  rfl

theorem v4_apply (V : Valuation τ sig (Elt Ideal)) (r : Fin 3072) :
    (StableHlo.after hostOps0_1 V (Proc.devRef .tc main_v4) : S1x3072.Idx → Elt Ideal .f32) (ix2 0 r)
      = (V (Proc.devRef .tc main_arg10) : S3072.Idx → Elt Ideal .f32) (ix1 r) := by
  rw [v4_eq]
  exact shapeCast_a_1a_apply _ _ _ _

theorem v5_eq (V : Valuation τ sig (Elt Ideal)) :
    (StableHlo.after hostOps0_1 V (Proc.devRef .tc main_v5) : S1x3072.Idx → Elt Ideal .f32)
      = shapeCast S1x3072 (V (Proc.devRef .tc main_arg11) : S3072.Idx → Elt Ideal .f32) shapeCasts_S3072_S1x3072 := by
  dsimp only [hostOps0_1]
  after_results
  rfl

theorem v5_apply (V : Valuation τ sig (Elt Ideal)) (r : Fin 3072) :
    (StableHlo.after hostOps0_1 V (Proc.devRef .tc main_v5) : S1x3072.Idx → Elt Ideal .f32) (ix2 0 r)
      = (V (Proc.devRef .tc main_arg11) : S3072.Idx → Elt Ideal .f32) (ix1 r) := by
  rw [v5_eq]
  exact shapeCast_a_1a_apply _ _ _ _

theorem v6_eq (V : Valuation τ sig (Elt Ideal)) :
    (StableHlo.after hostOps0_1 V (Proc.devRef .tc main_v6) : S1x50257.Idx → Elt Ideal .f32)
      = shapeCast S1x50257 (V (Proc.devRef .tc main_arg13) : S50257.Idx → Elt Ideal .f32) shapeCasts_S50257_S1x50257 := by
  dsimp only [hostOps0_1]
  after_results
  rfl

theorem v6_apply (V : Valuation τ sig (Elt Ideal)) (v : Fin 50257) :
    (StableHlo.after hostOps0_1 V (Proc.devRef .tc main_v6) : S1x50257.Idx → Elt Ideal .f32) (ix2 0 v)
      = (V (Proc.devRef .tc main_arg13) : S50257.Idx → Elt Ideal .f32) (ix1 v) := by
  rw [v6_eq]
  exact shapeCast_a_1a_apply _ _ _ _

end Cert.KernelIdeal.HostIn

end
-- ==== Proof.Embed.lean ====
import proofs.«411179_j26594437497554_3_alg».proof.Defs
import proofs.«411179_j26594437497554_3_alg».proof.Proof.Gen.KernelIdeal.Launch
import proofs.«411179_j26594437497554_3_alg».proof.Proof.Gen.Pre_finite_inputs
import Idealize.ShloMosaic.Lib.StableHlo.Run
import Idealize.ShloMosaic.Lib.Pipeline.Frame
import Idealize.ShloMosaic.Lib.StableHlo.Predicate
import Idealize.ShloMosaic.Lib.ReduceAll
import Idealize.ShloMosaic.Lib.ValueIdx

noncomputable section

namespace Cert.Pre_finite_inputs.IndexRange

open Idealize.ShloMosaic Idealize.ShloMosaic.ValueIdx

instance : Subsingleton S_.Idx := ⟨fun a b => funext fun d => d.elim0⟩

variable [Facts]

theorem part4 (a0 : IVec S1 32) (v67 : IVec S_ 1) (h : fn_part4 (F := Ideal) a0 v67 ix0 = 1#1) :
    v67 ix0 = 1#1 ∧ ∀ i : S1.Idx, IntOp.cmpi .slt (a0 i) 50257#32 = 1#1 := by
  unfold fn_part4 at h
  obtain ⟨h1, h2⟩ := IntOp.andi_eq_one.1 h
  exact ⟨h1, fun i => Host.reduce_andi_all _ _ _ _ _ h2 i⟩

theorem part3 (a0 : IVec S1 32) (a12 : FVec Ideal S50257x1024 .f32) (a13 : FVec Ideal S50257 .f32) (v48 : IVec S_ 1)
    (v49 v50 : FVec Ideal S3072 .f32) (h : fn_part3 (F := Ideal) a0 a12 a13 v48 v49 v50 ix0 = 1#1) (i : S1.Idx) :
    IntOp.cmpi .sge (a0 i) 0#32 = 1#1 ∧ IntOp.cmpi .slt (a0 i) 50257#32 = 1#1 := by
  unfold fn_part3 at h
  obtain ⟨h67, hlt⟩ := part4 _ _ h
  obtain ⟨-, h66⟩ := IntOp.andi_eq_one.1 h67
  exact ⟨Host.reduce_andi_all _ _ _ _ _ h66 i, hlt i⟩

theorem part2 (a0 : IVec S1 32) (a8 a9 : FVec Ideal S3072x1024 .f32) (a10 a11 : FVec Ideal S3072 .f32)
    (a12 : FVec Ideal S50257x1024 .f32) (a13 : FVec Ideal S50257 .f32) (v33 : IVec S_ 1)
    (h : fn_part2 (F := Ideal) a0 a8 a9 a10 a11 a12 a13 v33 ix0 = 1#1) (i : S1.Idx) :
    IntOp.cmpi .sge (a0 i) 0#32 = 1#1 ∧ IntOp.cmpi .slt (a0 i) 50257#32 = 1#1 := by
  unfold fn_part2 at h
  exact part3 _ _ _ _ _ _ h i

theorem part1 (a0 : IVec S1 32) (a5 : FVec Ideal S15 .f32) (a6 : FVec Ideal S1024x2048 .f32) (a7 : FVec Ideal S1024 .f32)
    (a8 a9 : FVec Ideal S3072x1024 .f32) (a10 a11 : FVec Ideal S3072 .f32) (a12 : FVec Ideal S50257x1024 .f32)
    (a13 : FVec Ideal S50257 .f32) (v13 : IVec S_ 1) (v16 : IVec S15x2048 1)
    (h : fn_part1 (F := Ideal) a0 a5 a6 a7 a8 a9 a10 a11 a12 a13 v13 v16 ix0 = 1#1) (i : S1.Idx) :
    IntOp.cmpi .sge (a0 i) 0#32 = 1#1 ∧ IntOp.cmpi .slt (a0 i) 50257#32 = 1#1 := by
  unfold fn_part1 at h
  exact part2 _ _ _ _ _ _ _ _ h i

theorem decode (a0 : IVec S1 32) (a1 : FVec Ideal S1x1x1024 .f32) (a2 : FVec Ideal S15x1024 .f32) (a3 : FVec Ideal S50257x1024 .f32)
    (a4 : FVec Ideal S15x2048 .f32) (a5 : FVec Ideal S15 .f32) (a6 : FVec Ideal S1024x2048 .f32) (a7 : FVec Ideal S1024 .f32)
    (a8 a9 : FVec Ideal S3072x1024 .f32) (a10 a11 : FVec Ideal S3072 .f32) (a12 : FVec Ideal S50257x1024 .f32)
    (a13 : FVec Ideal S50257 .f32) (h : fn (F := Ideal) a0 a1 a2 a3 a4 a5 a6 a7 a8 a9 a10 a11 a12 a13 ix0 = 1#1) (i : S1.Idx) :
    IntOp.cmpi .sge (a0 i) 0#32 = 1#1 ∧ IntOp.cmpi .slt (a0 i) 50257#32 = 1#1 := by
  unfold fn at h
  exact part1 _ _ _ _ _ _ _ _ _ _ _ _ h i

end Cert.Pre_finite_inputs.IndexRange

namespace Cert.KernelIdeal.Embed

open Cert.KernelIdeal Cert.KernelIdeal.Gen
open Idealize.ShloMosaic Idealize.ShloMosaic.TcCoe Idealize.ShloMosaic.ValueIdx

theorem ofBool_sle_iff (a b : BitVec 32) : BitVec.ofBool (a.sle b) = 1#1 ↔ a.toInt ≤ b.toInt := by
  rw [StableHlo.Predicate.ofBool_eq_one_iff]
  exact ⟨of_decide_eq_true, decide_eq_true⟩

theorem ofBool_slt_iff (a b : BitVec 32) : BitVec.ofBool (a.slt b) = 1#1 ↔ a.toInt < b.toInt := by
  rw [StableHlo.Predicate.ofBool_eq_one_iff]
  exact ⟨of_decide_eq_true, decide_eq_true⟩

theorem cmpi_sge_iff (a b : BitVec 32) : IntOp.cmpi .sge a b = 1#1 ↔ b.toInt ≤ a.toInt := by
  unfold IntOp.cmpi; exact ofBool_sle_iff b a

theorem cmpi_sle_iff (a b : BitVec 32) : IntOp.cmpi .sle a b = 1#1 ↔ a.toInt ≤ b.toInt := by
  unfold IntOp.cmpi; exact ofBool_sle_iff a b

theorem cmpi_slt_iff (a b : BitVec 32) : IntOp.cmpi .slt a b = 1#1 ↔ a.toInt < b.toInt := by
  unfold IntOp.cmpi; exact ofBool_slt_iff a b

theorem toInt_0 : (0#32 : BitVec 32).toInt = 0 := by decide
theorem toInt_50256 : (50256#32 : BitVec 32).toInt = 50256 := by decide
theorem toInt_50257 : (50257#32 : BitVec 32).toInt = 50257 := by decide

theorem wrap_word (w : BitVec 32) (h0 : 0 ≤ w.toInt) :
    Scalar.select (IntOp.cmpi .slt w 0#32) (IntOp.addi w 50257#32) w = w := by
  have hc : ¬ IntOp.cmpi .slt w 0#32 = 1#1 := by
    rw [cmpi_slt_iff, toInt_0]; omega
  exact if_neg hc

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    show List.foldl (fun r n => IntOp.andi r (f n)) (IntOp.andi 1#1 (f a)) l = 1#1
    rw [e]
    exact foldl_andi_ones f hf l

def wrappedIdx (x0 : IVec S1 32) : IVec S1x1 32 :=
  broadcastInDim S1x1 ![0] bcast_S1_S1x1_0 (select (cmpi .slt x0 (broadcastInDim S1 ![] bcast_S_S1 (constantI S_ 32 0#32))) (addi x0 (broadcastInDim S1 ![] bcast_S_S1 (constantI S_ 32 50257#32))) x0)

def inRangeMask (i5 : IVec S1x1 32) : IVec S1 1 :=
  Host.reduce IntOp.andi (andi (cmpi .sge i5 (broadcastInDim S1x1 ![] bcast_S_S1x1 (constantI S_ 32 0#32))) (cmpi .sle i5 (broadcastInDim S1x1 ![1] bcast_S1_S1x1_1 (constantI S1 32 50256#32)))) (constantI S_ 1 1#1) reducesTo_S1x1_S1_d1 h_S_

def maskedRow (msk : IVec S1 1) (x3 : FVec Ideal S50257x1024 .f32) (i5 : IVec S1x1 32) : FVec Ideal S1x1024 .f32 :=
  select (broadcastInDim S1x1024 ![0] bcast_S1_S1x1024_0 msk) (Host.gather gather_S50257x1024_S1x1_S1x1024_1_0_n_n_0_1_11024 x3 i5)
    (broadcastInDim S1x1024 ![] bcast_S_S1x1024 (constant S_ .f32 0x7FC00000#32 : FVec Ideal S_ .f32))

def gatheredRow (x0 : IVec S1 32) (x3 : FVec Ideal S50257x1024 .f32) : FVec Ideal S1x1024 .f32 :=
  Host.gather gather_S50257x1024_S1x1_S1x1024_1_0_n_n_0_1_11024 x3 (broadcastInDim S1x1 ![0] bcast_S1_S1x1_0 (select (cmpi .slt x0 (broadcastInDim S1 ![] bcast_S_S1 (constantI S_ 32 0#32))) (addi x0 (broadcastInDim S1 ![] bcast_S_S1 (constantI S_ 32 50257#32))) x0))

abbrev opsIdx : List (HloOp τ sig (Elt Ideal)) := (hostOps0 (F := Ideal)).take 8
abbrev opsMask : List (HloOp τ sig (Elt Ideal)) := ((hostOps0 (F := Ideal)).drop 8).take 9
abbrev opsRow : List (HloOp τ sig (Elt Ideal)) := (hostOps0 (F := Ideal)).drop 17

theorem hostOps0_split : hostOps0 (F := Ideal) = opsIdx ++ (opsMask ++ opsRow) := by rfl

theorem idx_run (V : Valuation τ sig (Elt Ideal)) :
    StableHlo.after opsIdx V (Proc.devRef .tc main_call0_v5) = wrappedIdx (V (Proc.devRef .tc main_arg0)) := by
  dsimp only [opsIdx, hostOps0, List.take]
  after_results
  rfl

theorem idx_run_table (V : Valuation τ sig (Elt Ideal)) :
    StableHlo.after opsIdx V (Proc.devRef .tc main_arg3) = V (Proc.devRef .tc main_arg3) := by
  dsimp only [opsIdx, hostOps0, List.take]
  after_results <;> rfl

theorem mask_run (V : Valuation τ sig (Elt Ideal)) :
    StableHlo.after opsMask V (Proc.devRef .tc main_call0_v11) = inRangeMask (V (Proc.devRef .tc main_call0_v5)) := by
  dsimp only [opsMask, hostOps0, List.take, List.drop]
  after_results
  rfl

theorem mask_run_idx (V : Valuation τ sig (Elt Ideal)) :
    StableHlo.after opsMask V (Proc.devRef .tc main_call0_v5) = V (Proc.devRef .tc main_call0_v5) := by
  dsimp only [opsMask, hostOps0, List.take, List.drop]
  after_results <;> rfl

theorem mask_run_table (V : Valuation τ sig (Elt Ideal)) :
    StableHlo.after opsMask V (Proc.devRef .tc main_arg3) = V (Proc.devRef .tc main_arg3) := by
  dsimp only [opsMask, hostOps0, List.take, List.drop]
  after_results <;> rfl

theorem row_run (V : Valuation τ sig (Elt Ideal)) :
    StableHlo.after opsRow V (Proc.devRef .tc main_v0)
      = maskedRow (V (Proc.devRef .tc main_call0_v11)) (V (Proc.devRef .tc main_arg3)) (V (Proc.devRef .tc main_call0_v5)) := by
  dsimp only [opsRow, hostOps0, List.drop]
  after_results
  rfl

theorem after_hostOps0 (V : Valuation τ sig (Elt Ideal)) :
    StableHlo.after (hostOps0 (F := Ideal)) V (Proc.devRef .tc main_v0)
      = maskedRow (inRangeMask (wrappedIdx (V (Proc.devRef .tc main_arg0)))) (V (Proc.devRef .tc main_arg3))
          (wrappedIdx (V (Proc.devRef .tc main_arg0))) := by
  rw [hostOps0_split, StableHlo.after_append, StableHlo.after_append, row_run, mask_run, mask_run_table, mask_run_idx,
    idx_run, idx_run_table]

theorem reshapes_keep (V : Valuation τ sig (Elt Ideal)) :
    StableHlo.after (hostOps0_1 (F := Ideal)) V (Proc.devRef .tc main_v0) = V (Proc.devRef .tc main_v0) := by
  dsimp only [hostOps0_1]
  after_results <;> rfl

theorem index_in_range (m : (ℓ : Loc nD τ sig) → Buf (Elt Ideal) ℓ) (h : Cert.Pre_KernelIdeal m) (c : Dev nD) (i : S1.Idx) :
    0 ≤ ((m ((c : Thread nD τ).loc main_arg0) : IVec S1 32) i).toInt
      ∧ ((m ((c : Thread nD τ).loc main_arg0) : IVec S1 32) i).toInt < 50257 := by
  obtain ⟨hge, hlt⟩ := Cert.Pre_finite_inputs.IndexRange.decode _ _ _ _ _ _ _ _ _ _ _ _ _ _ (congrFun (h c) ix0) i
  rw [cmpi_sge_iff, toInt_0] at hge
  rw [cmpi_slt_iff, toInt_50257] at hlt
  exact ⟨hge, hlt⟩

theorem mask_one (x0 : IVec S1 32) (hx : ∀ i : S1.Idx, 0 ≤ (x0 i).toInt ∧ (x0 i).toInt < 50257) (k : S1.Idx) :
    inRangeMask (wrappedIdx x0) k = 1#1 := by
  unfold inRangeMask
  rw [Host.reduce_eq_foldl]
  refine foldl_andi_ones _ (fun j => ?_) _
  obtain ⟨i, hi⟩ : ∃ i : S1.Idx, wrappedIdx x0 j
      = Scalar.select (IntOp.cmpi .slt (x0 i) 0#32) (IntOp.addi (x0 i) 50257#32) (x0 i) := ⟨_, rfl⟩
  show IntOp.andi (IntOp.cmpi .sge (wrappedIdx x0 j) 0#32) (IntOp.cmpi .sle (wrappedIdx x0 j) 50256#32) = 1#1
  rw [hi, wrap_word _ (hx i).1]
  refine IntOp.andi_eq_one.2 ⟨(cmpi_sge_iff _ _).2 ?_, (cmpi_sle_iff _ _).2 ?_⟩
  · rw [toInt_0]; exact (hx i).1
  · rw [toInt_50256]; have := (hx i).2; omega

theorem maskedRow_of_ones (msk : IVec S1 1) (x3 : FVec Ideal S50257x1024 .f32) (i5 : IVec S1x1 32) (hm : ∀ k, msk k = 1#1) :
    maskedRow msk x3 i5 = Host.gather gather_S50257x1024_S1x1_S1x1024_1_0_n_n_0_1_11024 x3 i5 := by
  funext j
  have e : broadcastInDim S1x1024 ![0] bcast_S1_S1x1024_0 msk j = 1#1 := hm _
  unfold maskedRow
  rw [select_apply, e, select_one]

theorem embedded_eq (m : (ℓ : Loc nD τ sig) → Buf (Elt Ideal) ℓ) (h : Cert.Pre_KernelIdeal m) (c : Dev nD) :
    StableHlo.after (hostOps0_1 (F := Ideal)) (StableHlo.after (hostOps0 (F := Ideal)) (fun b => m ((c : Dev nD), b))) (Proc.devRef .tc main_v0)
      = gatheredRow (m ((c : Thread nD τ).loc main_arg0)) (m ((c : Thread nD τ).loc main_arg3)) := by
  rw [reshapes_keep, after_hostOps0]
  exact maskedRow_of_ones _ _ _ (mask_one _ (index_in_range m h c))

end Cert.KernelIdeal.Embed

end
-- ==== Proof.TailK.lean ====
import proofs.«411179_j26594437497554_3_alg».proof.Proof.Gen.KernelIdeal.Launch
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe

section TypedReads

open StableHlo

variable {tp : Topo} {sg : RefSig} {Vl : EltTy → Type}

private def rd {T : BufTy} (W : Valuation tp sg Vl) (x : TRef sg T) : T.Contents Vl :=
  x.ofBuf (W (Proc.devRef .tc x.ref))

private theorem ofBuf_toBuf {T : BufTy} (x : TRef sg T) (v : T.Contents Vl) : x.ofBuf (Val := Vl) (x.toBuf v) = v := by
  obtain ⟨r, h, h2, h3⟩ := x
  subst h
  rfl

private theorem rd_nullary {Ty : BufTy} (y : TRef sg Ty) (v : Ty.Contents Vl) (W : Valuation tp sg Vl) :
    rd ((TRef.nullary y v).result W) y = v := by
  unfold rd
  rw [nullary_result]
  exact ofBuf_toBuf y v

private theorem rd_unary {Tx Ty : BufTy} (x : TRef sg Tx) (y : TRef sg Ty) (f : Tx.Contents Vl → Ty.Contents Vl)
    (W : Valuation tp sg Vl) : rd ((TRef.unary x y f).result W) y = f (rd W x) := by
  unfold rd
  rw [unary_result]
  exact ofBuf_toBuf y _

private theorem rd_binary {Ta Tb Ty : BufTy} (a : TRef sg Ta) (b : TRef sg Tb) (y : TRef sg Ty)
    (f : Ta.Contents Vl → Tb.Contents Vl → Ty.Contents Vl) (W : Valuation tp sg Vl) :
    rd ((TRef.binary a b y f).result W) y = f (rd W a) (rd W b) := by
  unfold rd
  rw [binary_result]
  exact ofBuf_toBuf y _

private theorem rd_nullary_ne {T Ty : BufTy} (y : TRef sg Ty) (v : Ty.Contents Vl) (W : Valuation tp sg Vl)
    (z : TRef sg T) (h : z.ref ≠ y.ref) : rd ((TRef.nullary y v).result W) z = rd W z := by
  unfold rd
  rw [nullary_result_ne (h := h)]

private theorem rd_unary_ne {T Tx Ty : BufTy} (x : TRef sg Tx) (y : TRef sg Ty) (f : Tx.Contents Vl → Ty.Contents Vl)
    (W : Valuation tp sg Vl) (z : TRef sg T) (h : z.ref ≠ y.ref) : rd ((TRef.unary x y f).result W) z = rd W z := by
  unfold rd
  rw [unary_result_ne (h := h)]

private theorem rd_binary_ne {T Ta Tb Ty : BufTy} (a : TRef sg Ta) (b : TRef sg Tb) (y : TRef sg Ty)
    (f : Ta.Contents Vl → Tb.Contents Vl → Ty.Contents Vl) (W : Valuation tp sg Vl) (z : TRef sg T) (h : z.ref ≠ y.ref) :
    rd ((TRef.binary a b y f).result W) z = rd W z := by
  unfold rd
  rw [binary_result_ne (h := h)]

end TypedReads

def shiftedRowAt {F : FTy → Type} [FloatOps F] (x : FVec F S1x50257 .f32) : FVec F S1x50257 .f32 :=
  subf x (broadcastInDim S1x50257 ![0, 1] bcast_S1x1_S1x50257_0_1 (broadcastInDim S1x1 ![0] bcast_S1_S1x1_0
    (maximumf (broadcastInDim S1 ![] bcast_S_S1 (constant S_ .f32 0xFF800000#32))
      (Host.reduce FloatOps.maximumf x (constant S_ .f32 0xFF800000#32) reducesTo_S1x50257_S1_d1 h_S_))))

def logSoftmaxRowAt {F : FTy → Type} [FloatOps F] (x : FVec F S1x50257 .f32) : FVec F S1x50257 .f32 :=
  subf (shiftedRowAt x) (broadcastInDim S1x50257 ![0, 1] bcast_S1x1_S1x50257_0_1 (Host.log (broadcastInDim S1x1 ![0] bcast_S1_S1x1_0
    (Host.reduceAdd (Host.exp (shiftedRowAt x)) (constant S_ .f32 0x00000000#32) reducesTo_S1x50257_S1_d1 h_S_))))

theorem tail_logits_at {F : FTy → Type} [FloatOps F] (V : Valuation τ sig (Elt F)) :
    StableHlo.after hostOps3 V (Proc.devRef .tc main_v10) = logSoftmaxRowAt (F := F) (V (Proc.devRef .tc main_v9)) := by
  show rd (StableHlo.after hostOps3 V) (.of main_v10 : StableHlo.TRef sig ⟨S1x50257, .f32⟩) = _
  simp only [StableHlo.after_cons, StableHlo.after_nil]
  repeat (first
    | rw [rd_nullary] | rw [rd_unary] | rw [rd_binary]
    | (rw [rd_nullary_ne]; rotate_left; decide)
    | (rw [rd_unary_ne]; rotate_left; decide)
    | (rw [rd_binary_ne]; rotate_left; decide))
  have e9 : rd V (.of main_v9 : StableHlo.TRef sig ⟨S1x50257, .f32⟩) = V (Proc.devRef .tc main_v9) := rfl
  rw [e9]
  rfl

def logSoftmaxRow (x : FVec Ideal S1x50257 .f32) : FVec Ideal S1x50257 .f32 := logSoftmaxRowAt (F := Ideal) x

def rerank (x : FVec Ideal S1x1024 .f32) : FVec Ideal S1x1x1024 .f32 :=
  broadcastInDim S1x1x1024 ![1, 2] bcast_S1x1024_S1x1x1024_1_2 x

theorem tail_logits (V : Valuation τ sig (Elt Ideal)) :
    StableHlo.after hostOps3 V (Proc.devRef .tc main_v10) = logSoftmaxRow (V (Proc.devRef .tc main_v9)) :=
  tail_logits_at V

theorem tail_hidden (V : Valuation τ sig (Elt Ideal)) :
    StableHlo.after hostOps3_1 V (Proc.devRef .tc main_v11) = rerank (V (Proc.devRef .tc main_v8)) := by
  show StableHlo.after hostOps3_1 _ (Proc.devRef .tc main_v11) = _
  after_results
  rfl

end Cert.KernelIdeal.Tail

end
-- ==== Proof.ValR0.lean ====
import proofs.«411179_j26594437497554_3_alg».proof.Proof.FrameR0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)

theorem emb0_0 (t : Fin cfg0.N) (y : S1x1024.Idx) : ((cfg0.win 0).blk t).view.emb y = y := by
  obtain ⟨ea, eb⟩ := idx0_0 t
  funext a; apply Fin.ext
  match a with
  | ⟨0, _⟩ => show win0_0.index t (0 : Fin 2) * 1 + 1 * (y 0).val = (y 0).val; omega
  | ⟨1, _⟩ => show win0_0.index t (1 : Fin 2) * 1024 + 1 * (y 1).val = (y 1).val; omega

theorem emb0_1 (t : Fin cfg0.N) (y : S1x1024.Idx) : ((cfg0.win 1).blk t).view.emb y = y := by
  obtain ⟨ea, eb⟩ := idx0_1 t
  funext a; apply Fin.ext
  match a with
  | ⟨0, _⟩ => show win0_1.index t (0 : Fin 2) * 1 + 1 * (y 0).val = (y 0).val; omega
  | ⟨1, _⟩ => show win0_1.index t (1 : Fin 2) * 1024 + 1 * (y 1).val = (y 1).val; omega

theorem emb0_2 (t : Fin cfg0.N) (y : S15x1024.Idx) : ((cfg0.win 2).blk t).view.emb y = y := by
  obtain ⟨ea, eb⟩ := idx0_2 t
  funext a; apply Fin.ext
  match a with
  | ⟨0, _⟩ => show win0_2.index t (0 : Fin 2) * 15 + 1 * (y 0).val = (y 0).val; omega
  | ⟨1, _⟩ => show win0_2.index t (1 : Fin 2) * 1024 + 1 * (y 1).val = (y 1).val; omega

theorem emb0_3 (t : Fin cfg0.N) (y : S15x2048.Idx) : ((cfg0.win 3).blk t).view.emb y = y := by
  obtain ⟨ea, eb⟩ := idx0_3 t
  funext a; apply Fin.ext
  match a with
  | ⟨0, _⟩ => show win0_3.index t (0 : Fin 2) * 15 + 1 * (y 0).val = (y 0).val; omega
  | ⟨1, _⟩ => show win0_3.index t (1 : Fin 2) * 2048 + 1 * (y 1).val = (y 1).val; omega

theorem emb0_4 (t : Fin cfg0.N) (y : S1x15.Idx) : ((cfg0.win 4).blk t).view.emb y = y := by
  obtain ⟨ea, eb⟩ := idx0_4 t
  funext a; apply Fin.ext
  match a with
  | ⟨0, _⟩ => show win0_4.index t (0 : Fin 2) * 1 + 1 * (y 0).val = (y 0).val; omega
  | ⟨1, _⟩ => show win0_4.index t (1 : Fin 2) * 15 + 1 * (y 1).val = (y 1).val; omega

theorem emb0_5 (t : Fin cfg0.N) (y : S1024x2048.Idx) : ((cfg0.win 5).blk t).view.emb y = y := by
  obtain ⟨ea, eb⟩ := idx0_5 t
  funext a; apply Fin.ext
  match a with
  | ⟨0, _⟩ => show win0_5.index t (0 : Fin 2) * 1024 + 1 * (y 0).val = (y 0).val; omega
  | ⟨1, _⟩ => show win0_5.index t (1 : Fin 2) * 2048 + 1 * (y 1).val = (y 1).val; omega

theorem emb0_6 (t : Fin cfg0.N) (y : S1x1024.Idx) : ((cfg0.win 6).blk t).view.emb y = y := by
  obtain ⟨ea, eb⟩ := idx0_6 t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem emb0_7 (t : Fin cfg0.N) (y : S1x15.Idx) : ((cfg0.win 7).blk t).view.emb y = y := by
  obtain ⟨ea, eb⟩ := idx0_7 t
  funext a; apply Fin.ext
  match a with
  | ⟨0, _⟩ => show win0_7.index t (0 : Fin 2) * 1 + 1 * (y 0).val = (y 0).val; omega
  | ⟨1, _⟩ => show win0_7.index t (1 : Fin 2) * 15 + 1 * (y 1).val = (y 1).val; omega

theorem emb0_8 (t : Fin cfg0.N) (y : S1x1024.Idx) : ((cfg0.win 8).blk t).view.emb y = y := by
  obtain ⟨ea, eb⟩ := idx0_8 t
  funext a; apply Fin.ext
  match a with
  | ⟨0, _⟩ => show win0_8.index t (0 : Fin 2) * 1 + 1 * (y 0).val = (y 0).val; omega
  | ⟨1, _⟩ => show win0_8.index t (1 : Fin 2) * 1024 + 1 * (y 1).val = (y 1).val; omega

theorem iblk0_0_eq (c : Dev nD) (t : Fin cfg0.N) : (iblk0 V c 0 t : Vec F S1x1024 .f32) = (V c (Pipeline.arrRef spec0 0) : Vec F S1x1024 .f32) := by
  funext y
  show (V c (Pipeline.arrRef spec0 0) : Vec F S1x1024 .f32) (((cfg0.win 0).blk t).view.emb y) = _
  rw [emb0_0]

theorem iblk0_1_eq (c : Dev nD) (t : Fin cfg0.N) : (iblk0 V c 1 t : Vec F S1x1024 .f32) = (V c (Pipeline.arrRef spec0 1) : Vec F S1x1024 .f32) := by
  funext y
  show (V c (Pipeline.arrRef spec0 1) : Vec F S1x1024 .f32) (((cfg0.win 1).blk t).view.emb y) = _
  rw [emb0_1]

theorem iblk0_2_eq (c : Dev nD) (t : Fin cfg0.N) : (iblk0 V c 2 t : Vec F S15x1024 .f32) = (V c (Pipeline.arrRef spec0 2) : Vec F S15x1024 .f32) := by
  funext y
  show (V c (Pipeline.arrRef spec0 2) : Vec F S15x1024 .f32) (((cfg0.win 2).blk t).view.emb y) = _
  rw [emb0_2]

theorem iblk0_3_eq (c : Dev nD) (t : Fin cfg0.N) : (iblk0 V c 3 t : Vec F S15x2048 .f32) = (V c (Pipeline.arrRef spec0 3) : Vec F S15x2048 .f32) := by
  funext y
  show (V c (Pipeline.arrRef spec0 3) : Vec F S15x2048 .f32) (((cfg0.win 3).blk t).view.emb y) = _
  rw [emb0_3]

theorem iblk0_4_eq (c : Dev nD) (t : Fin cfg0.N) : (iblk0 V c 4 t : Vec F S1x15 .f32) = (V c (Pipeline.arrRef spec0 4) : Vec F S1x15 .f32) := by
  funext y
  show (V c (Pipeline.arrRef spec0 4) : Vec F S1x15 .f32) (((cfg0.win 4).blk t).view.emb y) = _
  rw [emb0_4]

theorem iblk0_5_eq (c : Dev nD) (t : Fin cfg0.N) : (iblk0 V c 5 t : Vec F S1024x2048 .f32) = (V c (Pipeline.arrRef spec0 5) : Vec F S1024x2048 .f32) := by
  funext y
  show (V c (Pipeline.arrRef spec0 5) : Vec F S1024x2048 .f32) (((cfg0.win 5).blk t).view.emb y) = _
  rw [emb0_5]

theorem iblk0_6_eq (c : Dev nD) (t : Fin cfg0.N) : (iblk0 V c 6 t : Vec F S1x1024 .f32) = (V c (Pipeline.arrRef spec0 6) : Vec F S1x1024 .f32) := by
  funext y
  show (V c (Pipeline.arrRef spec0 6) : Vec F S1x1024 .f32) (((cfg0.win 6).blk t).view.emb y) = _
  rw [emb0_6]

set_option maxHeartbeats 1000000 in

theorem flushed0_7_eq (c : Dev nD) (t : Fin cfg0.N) :
    (dat0 V c).flushed 7 t = ((cfg0.win 7).blk t).view.read (Elt F) (k0_pay3 (V c (Pipeline.arrRef spec0 0)) (V c (Pipeline.arrRef spec0 1)) (V c (Pipeline.arrRef spec0 3)) (V c (Pipeline.arrRef spec0 4))) := by
  show (cfg0.win 7).cut (grid0.coords t) ((dat0 V c).after 7 t) = _
  rw [after0_7]
  unfold out0_7
  rw [View.canon_unit_zero hz0]
  simp only [View.ld_unit_zero (S := S1x1024) hz0, View.ld_unit_zero (S := S15x2048) hz0, View.ld_unit_zero (S := S1x15) hz0]
  rw [iblk0_0_eq, iblk0_1_eq, iblk0_3_eq, iblk0_4_eq]
  funext j
  show (k0_pay3 (V c (Pipeline.arrRef spec0 0)) (V c (Pipeline.arrRef spec0 1)) (V c (Pipeline.arrRef spec0 3)) (V c (Pipeline.arrRef spec0 4))) j = (k0_pay3 (V c (Pipeline.arrRef spec0 0)) (V c (Pipeline.arrRef spec0 1)) (V c (Pipeline.arrRef spec0 3)) (V c (Pipeline.arrRef spec0 4))) (((cfg0.win 7).blk t).view.emb j)
  rw [emb0_7]

theorem mem_blk0_7 (t : Fin cfg0.N) (i : S1x15.Idx) :
    i ∈ ((cfg0.win 7).blk t).view.set ↔ ∀ a : Fin 2, win0_7.index t a * S1x15.size a ≤ (i a).val ∧ (i a).val < win0_7.index t a * S1x15.size a + S1x15.size a := by
  show i ∈ ((View.whole main_v7_0).slice (win0_7.rect t)).set ↔ _
  rw [View.set_slice_whole, Rect.mem_set_unit]
  exact Iff.rfl

theorem cover_arr0_7 (i : S1x15.Idx) : ∃ t : Fin cfg0.N, (cfg0.win 7).flush t = true ∧ i ∈ ((cfg0.win 7).blk t).view.set := by
  refine ⟨t0_0, flush0_7 t0_0, ?_⟩
  rw [mem_blk0_7]
  obtain ⟨ea, eb⟩ := idx0_7 t0_0
  have h0 : (i 0).val < 1 := (i 0).isLt
  have h1 : (i 1).val < 15 := (i 1).isLt
  intro a
  match a with
  | ⟨0, _⟩ => show win0_7.index t0_0 (0 : Fin 2) * 1 ≤ (i 0).val ∧ (i 0).val < win0_7.index t0_0 (0 : Fin 2) * 1 + 1; omega
  | ⟨1, _⟩ => show win0_7.index t0_0 (1 : Fin 2) * 15 ≤ (i 1).val ∧ (i 1).val < win0_7.index t0_0 (1 : Fin 2) * 15 + 15; omega

theorem arr0_7 (c : Dev nD) : (dat0 V c).arrAt 7 cfg0.N = k0_pay3 (V c (Pipeline.arrRef spec0 0)) (V c (Pipeline.arrRef spec0 1)) (V c (Pipeline.arrRef spec0 3)) (V c (Pipeline.arrRef spec0 4)) :=
  (dat0 V c).arrAt_eq_of_cover 7 (k0_pay3 (V c (Pipeline.arrRef spec0 0)) (V c (Pipeline.arrRef spec0 1)) (V c (Pipeline.arrRef spec0 3)) (V c (Pipeline.arrRef spec0 4))) (fun t _ => flushed0_7_eq V c t) cover_arr0_7

set_option maxHeartbeats 1000000 in

theorem flushed0_8_eq (c : Dev nD) (t : Fin cfg0.N) :
    (dat0 V c).flushed 8 t = ((cfg0.win 8).blk t).view.read (Elt F) (k0_pay1 (k0_pay4 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (Scalar.ofBits .f32 0x00000000#32)) := by
  show (cfg0.win 8).cut (grid0.coords t) ((dat0 V c).after 8 t) = _
  rw [after0_8]
  unfold out0_8
  rw [View.canon_unit_zero hz0]
  simp only [View.ld_unit_zero (S := S1x1024) hz0, View.ld_unit_zero (S := S15x2048) hz0, View.ld_unit_zero (S := S1x15) hz0, View.ld_unit_zero (S := S15x1024) hz0, View.ld_unit_zero (S := S1024x2048) hz0]
  rw [iblk0_0_eq, iblk0_1_eq, iblk0_2_eq, iblk0_3_eq, iblk0_4_eq, iblk0_5_eq, iblk0_6_eq]
  funext j
  show (k0_pay1 (k0_pay4 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (Scalar.ofBits .f32 0x00000000#32)) j = (k0_pay1 (k0_pay4 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (Scalar.ofBits .f32 0x00000000#32)) (((cfg0.win 8).blk t).view.emb j)
  rw [emb0_8]

theorem mem_blk0_8 (t : Fin cfg0.N) (i : S1x1024.Idx) :
    i ∈ ((cfg0.win 8).blk t).view.set ↔ ∀ a : Fin 2, win0_8.index t a * S1x1024.size a ≤ (i a).val ∧ (i a).val < win0_8.index t a * S1x1024.size a + S1x1024.size a := by
  show i ∈ ((View.whole main_v7_1).slice (win0_8.rect t)).set ↔ _
  rw [View.set_slice_whole, Rect.mem_set_unit]
  exact Iff.rfl

theorem cover_arr0_8 (i : S1x1024.Idx) : ∃ t : Fin cfg0.N, (cfg0.win 8).flush t = true ∧ i ∈ ((cfg0.win 8).blk t).view.set := by
  refine ⟨t0_0, flush0_8 t0_0, ?_⟩
  rw [mem_blk0_8]
  obtain ⟨ea, eb⟩ := idx0_8 t0_0
  have h0 : (i 0).val < 1 := (i 0).isLt
  have h1 : (i 1).val < 1024 := (i 1).isLt
  intro a
  match a with
  | ⟨0, _⟩ => show win0_8.index t0_0 (0 : Fin 2) * 1 ≤ (i 0).val ∧ (i 0).val < win0_8.index t0_0 (0 : Fin 2) * 1 + 1; omega
  | ⟨1, _⟩ => show win0_8.index t0_0 (1 : Fin 2) * 1024 ≤ (i 1).val ∧ (i 1).val < win0_8.index t0_0 (1 : Fin 2) * 1024 + 1024; omega

theorem arr0_8 (c : Dev nD) : (dat0 V c).arrAt 8 cfg0.N = k0_pay1 (k0_pay4 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (Scalar.ofBits .f32 0x00000000#32) :=
  (dat0 V c).arrAt_eq_of_cover 8 (k0_pay1 (k0_pay4 (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6))) (Scalar.ofBits .f32 0x00000000#32)) (fun t _ => flushed0_8_eq V c t) cover_arr0_8

end Cert.KernelIdeal.Hand
-- ==== Proof.ValR1.lean ====
import proofs.«411179_j26594437497554_3_alg».proof.Proof.FrameR1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero_offsets1 : (![0, 0] : Fin 2 → Nat) = fun _ => 0 := funext fun a => by fin_cases a <;> rfl

theorem iblk1_0_whole (c : Dev nD) (t : Fin cfg1.N) :
    (iblk1 V c 0 t : Vec F S1x1024 .f32) = (V c (Pipeline.arrRef spec1 0) : Vec F S1x1024 .f32) := by
  funext j
  show (V c (Pipeline.arrRef spec1 0) : Vec F S1x1024 .f32) (((cfg1.win 0).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega

theorem iblk1_1_whole (c : Dev nD) (t : Fin cfg1.N) :
    (iblk1 V c 1 t : Vec F S1x1024 .f32) = (V c (Pipeline.arrRef spec1 1) : Vec F S1x1024 .f32) := by
  funext j
  show (V c (Pipeline.arrRef spec1 1) : Vec F S1x1024 .f32) (((cfg1.win 1).blk t).view.emb j) = _
  refine congrArg _ (funext fun a => Fin.ext ?_)
  match a with
  | ⟨0, _⟩ => show 0 * 1 + 1 * (j 0).val = (j 0).val; omega
  | ⟨1, _⟩ => show 0 * 1024 + 1 * (j 1).val = (j 1).val; omega

theorem iblk1_2_whole (c : Dev nD) (t : Fin cfg1.N) :
    (iblk1 V c 2 t : Vec F S3072x1024 .f32) = (V c (Pipeline.arrRef spec1 2) : Vec F S3072x1024 .f32) := by
  funext j
  show (V c (Pipeline.arrRef spec1 2) : Vec F S3072x1024 .f32) (((cfg1.win 2).blk t).view.emb j) = _
  refine congrArg _ (funext fun a => Fin.ext ?_)
  match a with
  | ⟨0, _⟩ => show 0 * 3072 + 1 * (j 0).val = (j 0).val; omega
  | ⟨1, _⟩ => show 0 * 1024 + 1 * (j 1).val = (j 1).val; omega

theorem iblk1_3_whole (c : Dev nD) (t : Fin cfg1.N) :
    (iblk1 V c 3 t : Vec F S3072x1024 .f32) = (V c (Pipeline.arrRef spec1 3) : Vec F S3072x1024 .f32) := by
  funext j
  show (V c (Pipeline.arrRef spec1 3) : Vec F S3072x1024 .f32) (((cfg1.win 3).blk t).view.emb j) = _
  refine congrArg _ (funext fun a => Fin.ext ?_)
  match a with
  | ⟨0, _⟩ => show 0 * 3072 + 1 * (j 0).val = (j 0).val; omega
  | ⟨1, _⟩ => show 0 * 1024 + 1 * (j 1).val = (j 1).val; omega

theorem iblk1_4_whole (c : Dev nD) (t : Fin cfg1.N) :
    (iblk1 V c 4 t : Vec F S1x3072 .f32) = (V c (Pipeline.arrRef spec1 4) : Vec F S1x3072 .f32) := by
  funext j
  show (V c (Pipeline.arrRef spec1 4) : Vec F S1x3072 .f32) (((cfg1.win 4).blk t).view.emb j) = _
  refine congrArg _ (funext fun a => Fin.ext ?_)
  match a with
  | ⟨0, _⟩ => show 0 * 1 + 1 * (j 0).val = (j 0).val; omega
  | ⟨1, _⟩ => show 0 * 3072 + 1 * (j 1).val = (j 1).val; omega

theorem iblk1_5_whole (c : Dev nD) (t : Fin cfg1.N) :
    (iblk1 V c 5 t : Vec F S1x3072 .f32) = (V c (Pipeline.arrRef spec1 5) : Vec F S1x3072 .f32) := by
  funext j
  show (V c (Pipeline.arrRef spec1 5) : Vec F S1x3072 .f32) (((cfg1.win 5).blk t).view.emb j) = _
  refine congrArg _ (funext fun a => Fin.ext ?_)
  match a with
  | ⟨0, _⟩ => show 0 * 1 + 1 * (j 0).val = (j 0).val; omega
  | ⟨1, _⟩ => show 0 * 3072 + 1 * (j 1).val = (j 1).val; omega

abbrev gru1 (c : Dev nD) : Vec F S1x1024 .f32 :=
  k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))

theorem flushed1_6_eq (c : Dev nD) (t : Fin cfg1.N) :
    (dat1 V c).flushed 6 t = ((cfg1.win 6).blk t).view.read (Elt F) (gru1 V c) := by
  show (cfg1.win 6).cut (grid1.coords t) ((dat1 V c).after 6 t) = _
  rw [after1_6]
  unfold out1_6
  rw [View.canon_unit_zero zero_offsets1]
  simp only [View.ld_unit_zero (S := S1x1024) zero_offsets1, View.ld_unit_zero (S := S3072x1024) zero_offsets1, View.ld_unit_zero (S := S1x3072) zero_offsets1]
  rw [iblk1_0_whole V c t, iblk1_1_whole V c t, iblk1_2_whole V c t, iblk1_3_whole V c t, iblk1_4_whole V c t, iblk1_5_whole V c t]
  funext j
  show gru1 V c ((cfg1.win 6).xinj (grid1.coords t) j) = gru1 V c (((cfg1.win 6).blk t).view.emb j)
  refine congrArg _ (funext fun a => Fin.ext ?_)
  match a with
  | ⟨0, _⟩ => show (j 0).val = 0 * 1 + 1 * (j 0).val; omega
  | ⟨1, _⟩ => show (j 1).val = 0 * 1024 + 1 * (j 1).val; omega

theorem mem_blk1_6 (t : Fin cfg1.N) (i : S1x1024.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_v8).slice (win1_6.rect t)).set ↔ _
  rw [View.set_slice_whole, Rect.mem_set_unit]
  exact Iff.rfl

theorem cover1_6_arr (i : S1x1024.Idx) : ∃ t : Fin cfg1.N, (cfg1.win 6).flush t = true ∧ i ∈ ((cfg1.win 6).blk t).view.set := by
  refine ⟨t1_0, flush1_6 t1_0, ?_⟩
  rw [mem_blk1_6]
  intro a
  match a with
  | ⟨0, _⟩ => show 0 * 1 ≤ (i 0).val ∧ (i 0).val < 0 * 1 + 1; have h : (i 0).val < 1 := (i 0).isLt; omega
  | ⟨1, _⟩ => show 0 * 1024 ≤ (i 1).val ∧ (i 1).val < 0 * 1024 + 1024; have h : (i 1).val < 1024 := (i 1).isLt; omega

theorem arr1_6 (c : Dev nD) : (dat1 V c).arrAt 6 cfg1.N = k1_pay1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 (gru1 V c) (fun t _ => flushed1_6_eq V c t) cover1_6_arr

end Cert.KernelIdeal.Hand

end
-- ==== Proof.Spec.lean ====
import Idealize.ShloMosaic.PureOps.Ideal

noncomputable section

namespace Cert.Spec

open Idealize.ShloMosaic

def cat (a b : Fin 1024 → EReal) (k : Fin 2048) : EReal :=
  if h : k.val < 1024 then a ⟨k.val, h⟩ else b ⟨k.val - 1024, by omega⟩

def affine {K R : Nat} (v : Fin K → EReal) (W : Fin R → Fin K → EReal) (b : Fin R → EReal) (r : Fin R) : EReal :=
  (∑ k : Fin K, v k * W r k) + b r

def rowMax (l : Fin 15 → EReal) : EReal := (Finset.univ : Finset (Fin 15)).fold max ⊥ l

def softmax (l : Fin 15 → EReal) (j : Fin 15) : EReal :=
  Ideal.div (Ideal.exp (l j - rowMax l)) (∑ j' : Fin 15, Ideal.exp (l j' - rowMax l))

def attnWeights (e h : Fin 1024 → EReal) (A : Fin 15 → Fin 2048 → EReal) (a : Fin 15 → EReal) : Fin 15 → EReal :=
  softmax (affine (cat e h) A a)

def context (w : Fin 15 → EReal) (enc : Fin 15 → Fin 1024 → EReal) (n : Fin 1024) : EReal :=
  ∑ j : Fin 15, w j * enc j n

def combined (e h : Fin 1024 → EReal) (enc : Fin 15 → Fin 1024 → EReal) (A : Fin 15 → Fin 2048 → EReal)
    (a : Fin 15 → EReal) (C : Fin 1024 → Fin 2048 → EReal) (cb : Fin 1024 → EReal) (n : Fin 1024) : EReal :=
  max (affine (cat e (context (attnWeights e h A a) enc)) C cb n) (Ideal.ofBits .f32 0x00000000#32)

def gru (x h : Fin 1024 → EReal) (Wi Wh : Fin 3072 → Fin 1024 → EReal) (bi bh : Fin 3072 → EReal)
    (n : Fin 1024) : EReal :=
  let gi := affine x Wi bi
  let gh := affine h Wh bh
  let n0 : Fin 3072 := ⟨n.val, by omega⟩
  let n1 : Fin 3072 := ⟨n.val + 1024, by omega⟩
  let n2 : Fin 3072 := ⟨n.val + 2048, by omega⟩
  let r := Ideal.logistic (gi n0 + gh n0)
  let z := Ideal.logistic (gi n1 + gh n1)
  let c := Ideal.tanh (gi n2 + r * gh n2)
  (Ideal.ofBits .f32 0x3F800000#32 - z) * c + z * h n

def logits (hn : Fin 1024 → EReal) (O : Fin 50257 → Fin 1024 → EReal) (ob : Fin 50257 → EReal) : Fin 50257 → EReal :=
  affine hn O ob

end Cert.Spec

end
-- ==== Proof.PayAttn.lean ====
import proofs.«411179_j26594437497554_3_alg».proof.Proof.Gen.KernelIdeal.Skeleton
import proofs.«411179_j26594437497554_3_alg».proof.Proof.Spec
import Idealize.ShloMosaic.Lib.ValueIdx
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

theorem concat_apply (a b : FVec Ideal S1x1024 .f32) (k : Fin 2048) :
    (concatenate S1x2048 1 [⟨S1x1024, a⟩, ⟨S1x1024, b⟩] concatenates_S1x1024_S1x1024_S1x2048_d1 : FVec Ideal S1x2048 .f32) (ix2 0 k)
      = Cert.Spec.cat (fun k => a (ix2 0 k)) (fun k => b (ix2 0 k)) k := by
  have hk2 := k.isLt
  unfold Cert.Spec.cat
  by_cases hk : k.val < 1024
  · rw [dif_pos hk]
    exact concatenate_pair_apply_left (1 : Fin S1x2048.rank) a b concatenates_S1x1024_S1x1024_S1x2048_d1 (ix2 0 k) rfl
      (ix2 0 ⟨k.val, hk⟩) (fun c => match c with | ⟨0, _⟩ => rfl | ⟨1, _⟩ => rfl)
  · rw [dif_neg hk]
    exact concatenate_pair_apply_right (1 : Fin S1x2048.rank) a b concatenates_S1x1024_S1x1024_S1x2048_d1 (ix2 0 k) rfl rfl
      (ix2 0 ⟨k.val - 1024, by omega⟩)
      (fun c hc => match c, hc with | ⟨0, _⟩, _ => rfl | ⟨1, _⟩, hc => absurd rfl hc)
      (by show (k.val - 1024) + 1024 = k.val; omega)

private theorem attn_lhs_0 (i : S1x15.Idx) (q : dot_S1x2048_S2048x15_S1x15_1_0_0_1_n_n.contr.Idx) :
    (dot_S1x2048_S2048x15_S1x15_1_0_0_1_n_n.lhsIdx i q 0).val = (i 0).val := by
  unfold DotDims.lhsIdx
  rw [dif_neg (show ¬(0 : Fin S1x2048.rank) ∈ dot_S1x2048_S2048x15_S1x15_1_0_0_1_n_n.lhsBatch by decide), dif_pos (show (0 : Fin S1x2048.rank) ∈ dot_S1x2048_S2048x15_S1x15_1_0_0_1_n_n.lhsNonContracting by decide)]
  rfl

private theorem attn_lhs_1 (i : S1x15.Idx) (q : dot_S1x2048_S2048x15_S1x15_1_0_0_1_n_n.contr.Idx) :
    (dot_S1x2048_S2048x15_S1x15_1_0_0_1_n_n.lhsIdx i q 1).val = (q ⟨0, by decide⟩).val :=
  dot_S1x2048_S2048x15_S1x15_1_0_0_1_n_n.lhsIdx_val_of_single rfl i q

private theorem attn_rhs_0 (i : S1x15.Idx) (q : dot_S1x2048_S2048x15_S1x15_1_0_0_1_n_n.contr.Idx) :
    (dot_S1x2048_S2048x15_S1x15_1_0_0_1_n_n.rhsIdx i q 0).val = (q ⟨0, by decide⟩).val :=
  dot_S1x2048_S2048x15_S1x15_1_0_0_1_n_n.rhsIdx_val_of_single rfl i q

private theorem attn_rhs_1 (i : S1x15.Idx) (q : dot_S1x2048_S2048x15_S1x15_1_0_0_1_n_n.contr.Idx) :
    (dot_S1x2048_S2048x15_S1x15_1_0_0_1_n_n.rhsIdx i q 1).val = (i 1).val := by
  unfold DotDims.rhsIdx
  rw [dif_neg (show ¬(1 : Fin S2048x15.rank) ∈ dot_S1x2048_S2048x15_S1x15_1_0_0_1_n_n.rhsBatch by decide), dif_pos (show (1 : Fin S2048x15.rank) ∈ dot_S1x2048_S2048x15_S1x15_1_0_0_1_n_n.rhsNonContracting by decide)]
  rfl

private theorem attn_matmul_apply (v : FVec Ideal S1x2048 .bf16) (w : FVec Ideal S2048x15 .bf16) (j : Fin 15) :
    matmul dot_S1x2048_S2048x15_S1x15_1_0_0_1_n_n none v w (constant (F := Ideal) S1x15 .f32 0x00000000#32) (ix2 0 j)
      = ∑ k : Fin 2048, v (ix2 0 k) * w (ix2 k j) := by
  simp only [matmul]
  rw [Ideal.matmul_constant_zero_apply, ← Equiv.sum_comp (contrEquiv1 dot_S1x2048_S2048x15_S1x15_1_0_0_1_n_n 2048 rfl rfl).symm]
  refine Finset.sum_congr rfl fun k _ => ?_
  have hk := contrEquiv1_symm_val dot_S1x2048_S2048x15_S1x15_1_0_0_1_n_n 2048 rfl rfl k
  have el : dot_S1x2048_S2048x15_S1x15_1_0_0_1_n_n.lhsIdx (ix2 0 j) ((contrEquiv1 dot_S1x2048_S2048x15_S1x15_1_0_0_1_n_n 2048 rfl rfl).symm k) = ix2 0 k := funext fun a => Fin.ext (by
    match a with
    | ⟨0, _⟩ => exact attn_lhs_0 _ _
    | ⟨1, _⟩ => exact (attn_lhs_1 _ _).trans hk)
  have er : dot_S1x2048_S2048x15_S1x15_1_0_0_1_n_n.rhsIdx (ix2 0 j) ((contrEquiv1 dot_S1x2048_S2048x15_S1x15_1_0_0_1_n_n 2048 rfl rfl).symm k) = ix2 k j := funext fun a => Fin.ext (by
    match a with
    | ⟨0, _⟩ => exact (attn_rhs_0 _ _).trans hk
    | ⟨1, _⟩ => exact attn_rhs_1 _ _)
  rw [el, er]

private theorem attn_transpose_apply (x : FVec Ideal S15x2048 .bf16) (k : Fin 2048) (j : Fin 15) :
    transpose S2048x15 [1, 0] x transposes_S15x2048_p1_0_S2048x15 (ix2 k j) = x (ix2 j k) :=
  transpose_apply [1, 0] x transposes_S15x2048_p1_0_S2048x15 (ix2 k j) (ix2 j k) (fun b => match b with
    | ⟨0, _⟩ => rfl
    | ⟨1, _⟩ => rfl)

private theorem attn_negInf : Ideal.ofBits .f32 0xFF800000#32 = (⊥ : EReal) := by
  simp [Ideal.ofBits, Ideal.ieee]

private theorem attn_rowMax_apply (v : FVec Ideal S1x15 .f32) :
    multiReduction (F := Ideal) .maximumf [1] S1 v 0xFF800000#32 reduces_S1x15_S1 (.inl rfl) rfl (ix1 0)
      = Cert.Spec.rowMax (fun j => v (ix2 0 j)) := by
  refine (Ideal.multiReduction_maximumf_single v _ reduces_S1x15_S1 (.inl rfl) rfl (ix1 0)).trans ?_
  unfold Cert.Spec.rowMax
  have hf : (v ∘ reduces_S1x15_S1.lift (ix1 0)) = fun j : Fin 15 => v (ix2 0 j) :=
    funext fun k => congrArg v (funext fun a => match a with | ⟨0, _⟩ => Fin.ext rfl | ⟨1, _⟩ => Fin.ext rfl)
  show (Finset.univ : Finset (Fin 15)).fold max (Ideal.ofBits .f32 0xFF800000#32) (v ∘ reduces_S1x15_S1.lift (ix1 0)) = _
  rw [attn_negInf, hf]
  rfl

private theorem attn_rowSum_apply (v : FVec Ideal S1x15 .f32) :
    multiReduction (F := Ideal) .add [1] S1 v 0x00000000#32 reduces_S1x15_S1 (.inl rfl) rfl (ix1 0)
      = ∑ j : Fin 15, v (ix2 0 j) := by
  refine (Ideal.multiReduction_add_single v _ reduces_S1x15_S1 (.inl rfl) rfl (ix1 0)).trans ?_
  exact Finset.sum_congr rfl fun k _ => congrArg v (funext fun a => match a with | ⟨0, _⟩ => Fin.ext rfl | ⟨1, _⟩ => Fin.ext rfl)

private theorem attn_spread_apply (m : FVec Ideal S1 .f32) (j : Fin 15) :
    broadcastTo S1x15 (shapeCast S1x1 m shapeCasts_S1_S1x1) broadcasts_S1x1_S1x15 (ix2 0 j) = m (ix1 0) := by
  refine (broadcastTo_apply _ broadcasts_S1x1_S1x15 (ix2 0 j) (ix2 0 0) (fun a => match a with | ⟨0, _⟩ => rfl | ⟨1, _⟩ => rfl)).trans ?_
  refine shapeCast_apply m shapeCasts_S1_S1x1 (ix2 0 0) (ix1 0) ?_
  rw [Shape.rowMajor_val_one, Shape.rowMajor_val_two]
  rfl

private def attnLogits (x0 x1 : Vec Ideal S1x1024 .f32) (x3 : Vec Ideal S15x2048 .f32) (x4 : Vec Ideal S1x15 .f32) : FVec Ideal S1x15 .f32 :=
  addf (matmul dot_S1x2048_S2048x15_S1x15_1_0_0_1_n_n none
      (truncf .bf16 (concatenate S1x2048 1 [⟨S1x1024, k0_pay2 x0⟩, ⟨S1x1024, (shapeCast S1x1024 x1 shapeCasts_S1x1024_S1x1024 : FVec Ideal S1x1024 .f32)⟩] concatenates_S1x1024_S1x1024_S1x2048_d1 : FVec Ideal S1x2048 .f32) bitsLt_bf16_f32)
      (transpose S2048x15 [1, 0] (truncf .bf16 x3 bitsLt_bf16_f32 : FVec Ideal S15x2048 .bf16) transposes_S15x2048_p1_0_S2048x15)
      (constant S1x15 .f32 0x00000000#32))
    (shapeCast S1x15 x4 shapeCasts_S1x15_S1x15)

private def attnShifted (L : FVec Ideal S1x15 .f32) : FVec Ideal S1x15 .f32 :=
  exp (subf L (broadcastTo S1x15 (shapeCast S1x1 (multiReduction .maximumf [1] S1 L 0xFF800000#32 reduces_S1x15_S1 (.inl rfl) rfl) shapeCasts_S1_S1x1) broadcasts_S1x1_S1x15))

private def attnSoft (L : FVec Ideal S1x15 .f32) : FVec Ideal S1x15 .f32 :=
  divf (attnShifted L) (broadcastTo S1x15 (shapeCast S1x1 (multiReduction .add [1] S1 (attnShifted L) 0x00000000#32 reduces_S1x15_S1 (.inl rfl) rfl) shapeCasts_S1_S1x1) broadcasts_S1x1_S1x15)

private theorem pay3_eq (x0 x1 : Vec Ideal S1x1024 .f32) (x3 : Vec Ideal S15x2048 .f32) (x4 : Vec Ideal S1x15 .f32) :
    k0_pay3 (F := Ideal) x0 x1 x3 x4 = attnSoft (attnLogits x0 x1 x3 x4) := rfl

private theorem attnLogits_apply (x0 x1 : Vec Ideal S1x1024 .f32) (x3 : Vec Ideal S15x2048 .f32) (x4 : Vec Ideal S1x15 .f32) (j : Fin 15) :
    attnLogits x0 x1 x3 x4 (ix2 0 j)
      = Cert.Spec.affine (Cert.Spec.cat (fun k => x0 (ix2 0 k)) (fun k => x1 (ix2 0 k))) (fun j k => x3 (ix2 j k)) (fun j => x4 (ix2 0 j)) j := by
  unfold attnLogits Cert.Spec.affine
  refine congrArg₂ (· + ·) ?_ (congrFun (shapeCast_self x4 _) (ix2 0 j))
  refine (attn_matmul_apply _ _ j).trans ?_
  refine Finset.sum_congr rfl fun k _ => ?_
  refine congrArg₂ (· * ·) ?_ ?_
  ·
    refine (truncf_apply (ψ := .bf16) _ bitsLt_bf16_f32 (ix2 0 k)).trans ((concat_apply _ _ k).trans ?_)
    exact congrArg₂ (fun (a b : FVec Ideal S1x1024 .f32) => Cert.Spec.cat (fun k => a (ix2 0 k)) (fun k => b (ix2 0 k)) k)
      (shapeCast_self x0 _) (shapeCast_self x1 _)
  ·
    exact (attn_transpose_apply _ k j).trans (truncf_apply (ψ := .bf16) x3 bitsLt_bf16_f32 (ix2 j k))

private theorem attnShifted_apply (L : FVec Ideal S1x15 .f32) (j : Fin 15) :
    attnShifted L (ix2 0 j) = Ideal.exp (L (ix2 0 j) - Cert.Spec.rowMax (fun j => L (ix2 0 j))) := by
  unfold attnShifted
  change Ideal.exp (L (ix2 0 j) - broadcastTo S1x15 _ broadcasts_S1x1_S1x15 (ix2 0 j)) = _
  rw [attn_spread_apply, attn_rowMax_apply]

private theorem attnSoft_apply (L : FVec Ideal S1x15 .f32) (j : Fin 15) :
    attnSoft L (ix2 0 j) = Cert.Spec.softmax (fun j => L (ix2 0 j)) j := by
  unfold attnSoft Cert.Spec.softmax
  change Ideal.div (attnShifted L (ix2 0 j)) (broadcastTo S1x15 _ broadcasts_S1x1_S1x15 (ix2 0 j)) = _
  refine congrArg₂ Ideal.div (attnShifted_apply L j) ?_
  refine (attn_spread_apply _ j).trans ((attn_rowSum_apply _).trans ?_)
  exact Finset.sum_congr rfl fun j' _ => attnShifted_apply L j'

theorem pay3_apply (x0 x1 : Vec Ideal S1x1024 .f32) (x3 : Vec Ideal S15x2048 .f32) (x4 : Vec Ideal S1x15 .f32) (j : Fin 15) :
    k0_pay3 (F := Ideal) x0 x1 x3 x4 (ix2 0 j)
      = Cert.Spec.attnWeights (fun k => x0 (ix2 0 k)) (fun k => x1 (ix2 0 k)) (fun j k => x3 (ix2 j k)) (fun j => x4 (ix2 0 j)) j := by
  rw [pay3_eq]
  refine (attnSoft_apply _ j).trans ?_
  unfold Cert.Spec.attnWeights
  exact congrArg (fun l => Cert.Spec.softmax l j) (funext fun j' => attnLogits_apply x0 x1 x3 x4 j')

end Cert.KernelIdeal.PayVal

end
-- ==== Proof.PayComb.lean ====
import proofs.«411179_j26594437497554_3_alg».proof.Proof.Gen.KernelIdeal.Skeleton
import proofs.«411179_j26594437497554_3_alg».proof.Proof.Spec
import proofs.«411179_j26594437497554_3_alg».proof.Proof.PayAttn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

theorem ctx_lhs_0 (i : S1x1024.Idx) (q : dot_S1x15_S15x1024_S1x1024_1_0_0_1_n_n.contr.Idx) :
    (dot_S1x15_S15x1024_S1x1024_1_0_0_1_n_n.lhsIdx i q 0).val = (i 0).val := by
  unfold DotDims.lhsIdx
  rw [dif_neg (show ¬(0 : Fin S1x15.rank) ∈ dot_S1x15_S15x1024_S1x1024_1_0_0_1_n_n.lhsBatch by decide), dif_pos (show (0 : Fin S1x15.rank) ∈ dot_S1x15_S15x1024_S1x1024_1_0_0_1_n_n.lhsNonContracting by decide)]
  rfl

theorem ctx_lhs_1 (i : S1x1024.Idx) (q : dot_S1x15_S15x1024_S1x1024_1_0_0_1_n_n.contr.Idx) :
    (dot_S1x15_S15x1024_S1x1024_1_0_0_1_n_n.lhsIdx i q 1).val = (q ⟨0, by decide⟩).val :=
  dot_S1x15_S15x1024_S1x1024_1_0_0_1_n_n.lhsIdx_val_of_single rfl i q

theorem ctx_rhs_0 (i : S1x1024.Idx) (q : dot_S1x15_S15x1024_S1x1024_1_0_0_1_n_n.contr.Idx) :
    (dot_S1x15_S15x1024_S1x1024_1_0_0_1_n_n.rhsIdx i q 0).val = (q ⟨0, by decide⟩).val :=
  dot_S1x15_S15x1024_S1x1024_1_0_0_1_n_n.rhsIdx_val_of_single rfl i q

theorem ctx_rhs_1 (i : S1x1024.Idx) (q : dot_S1x15_S15x1024_S1x1024_1_0_0_1_n_n.contr.Idx) :
    (dot_S1x15_S15x1024_S1x1024_1_0_0_1_n_n.rhsIdx i q 1).val = (i 1).val := by
  unfold DotDims.rhsIdx
  rw [dif_neg (show ¬(1 : Fin S15x1024.rank) ∈ dot_S1x15_S15x1024_S1x1024_1_0_0_1_n_n.rhsBatch by decide), dif_pos (show (1 : Fin S15x1024.rank) ∈ dot_S1x15_S15x1024_S1x1024_1_0_0_1_n_n.rhsNonContracting by decide)]
  rfl

theorem ctx_matmul_apply (w : FVec Ideal S1x15 .bf16) (E : FVec Ideal S15x1024 .bf16) (n : Fin 1024) :
    (matmul dot_S1x15_S15x1024_S1x1024_1_0_0_1_n_n none w E (constant S1x1024 .f32 0x00000000#32) : FVec Ideal S1x1024 .f32) (ix2 0 n)
      = ∑ j : Fin 15, w (ix2 0 j) * E (ix2 j n) := by
  simp only [matmul]
  rw [Ideal.matmul_constant_zero_apply, ← Equiv.sum_comp (contrEquiv1 dot_S1x15_S15x1024_S1x1024_1_0_0_1_n_n 15 rfl rfl).symm]
  refine Finset.sum_congr rfl fun k _ => ?_
  have hk := contrEquiv1_symm_val dot_S1x15_S15x1024_S1x1024_1_0_0_1_n_n 15 rfl rfl k
  have el : dot_S1x15_S15x1024_S1x1024_1_0_0_1_n_n.lhsIdx (ix2 0 n) ((contrEquiv1 dot_S1x15_S15x1024_S1x1024_1_0_0_1_n_n 15 rfl rfl).symm k) = ix2 0 k := funext fun a => Fin.ext (by
    match a with
    | ⟨0, _⟩ => exact ctx_lhs_0 _ _
    | ⟨1, _⟩ => exact (ctx_lhs_1 _ _).trans hk)
  have er : dot_S1x15_S15x1024_S1x1024_1_0_0_1_n_n.rhsIdx (ix2 0 n) ((contrEquiv1 dot_S1x15_S15x1024_S1x1024_1_0_0_1_n_n 15 rfl rfl).symm k) = ix2 k n := funext fun a => Fin.ext (by
    match a with
    | ⟨0, _⟩ => exact (ctx_rhs_0 _ _).trans hk
    | ⟨1, _⟩ => exact ctx_rhs_1 _ _)
  rw [el, er]

theorem comb_lhs_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl

theorem comb_lhs_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q

theorem comb_rhs_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q

theorem comb_rhs_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

theorem comb_matmul_apply (v : FVec Ideal S1x2048 .bf16) (M : FVec Ideal S2048x1024 .bf16) (n : Fin 1024) :
    (matmul dot_S1x2048_S2048x1024_S1x1024_1_0_0_1_n_n none v M (constant S1x1024 .f32 0x00000000#32) : FVec Ideal S1x1024 .f32) (ix2 0 n)
      = ∑ k : Fin 2048, v (ix2 0 k) * M (ix2 k n) := by
  simp only [matmul]
  rw [Ideal.matmul_constant_zero_apply, ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 0 n) ((contrEquiv1 dot_S1x2048_S2048x1024_S1x1024_1_0_0_1_n_n 2048 rfl rfl).symm k) = ix2 0 k := funext fun a => Fin.ext (by
    match a with
    | ⟨0, _⟩ => exact comb_lhs_0 _ _
    | ⟨1, _⟩ => exact (comb_lhs_1 _ _).trans hk)
  have er : dot_S1x2048_S2048x1024_S1x1024_1_0_0_1_n_n.rhsIdx (ix2 0 n) ((contrEquiv1 dot_S1x2048_S2048x1024_S1x1024_1_0_0_1_n_n 2048 rfl rfl).symm k) = ix2 k n := funext fun a => Fin.ext (by
    match a with
    | ⟨0, _⟩ => exact (comb_rhs_0 _ _).trans hk
    | ⟨1, _⟩ => exact comb_rhs_1 _ _)
  rw [el, er]

theorem ctx_apply (x0 x1 : Vec Ideal S1x1024 .f32) (x3 : Vec Ideal S15x2048 .f32) (x4 : Vec Ideal S1x15 .f32)
    (x2 : Vec Ideal S15x1024 .f32) (n : Fin 1024) :
    (matmul dot_S1x15_S15x1024_S1x1024_1_0_0_1_n_n none
        (truncf .bf16 (k0_pay3 (F := Ideal) x0 x1 x3 x4) bitsLt_bf16_f32) (truncf .bf16 x2 bitsLt_bf16_f32)
        (constant S1x1024 .f32 0x00000000#32) : FVec Ideal S1x1024 .f32) (ix2 0 n)
      = Cert.Spec.context (Cert.Spec.attnWeights (fun k => x0 (ix2 0 k)) (fun k => x1 (ix2 0 k)) (fun j k => x3 (ix2 j k)) (fun j => x4 (ix2 0 j)))
          (fun j n => x2 (ix2 j n)) n := by
  refine (ctx_matmul_apply _ _ n).trans ?_
  unfold Cert.Spec.context
  refine Finset.sum_congr rfl fun j _ => ?_
  rw [truncf_apply, truncf_apply, pay3_apply]

theorem comb_row_apply (a c : FVec Ideal S1x1024 .f32) (x5 : Vec Ideal S1024x2048 .f32) (e ctx : Fin 1024 → EReal)
    (ha : ∀ k, a (ix2 0 k) = e k) (hc : ∀ k, c (ix2 0 k) = ctx k) (n : Fin 1024) :
    (matmul dot_S1x2048_S2048x1024_S1x1024_1_0_0_1_n_n none
        (truncf .bf16 (concatenate S1x2048 1 [⟨S1x1024, a⟩, ⟨S1x1024, c⟩] concatenates_S1x1024_S1x1024_S1x2048_d1 : FVec Ideal S1x2048 .f32) bitsLt_bf16_f32)
        (transpose S2048x1024 [1, 0] (truncf .bf16 x5 bitsLt_bf16_f32 : FVec Ideal S1024x2048 .bf16) transposes_S1024x2048_p1_0_S2048x1024)
        (constant S1x1024 .f32 0x00000000#32) : FVec Ideal S1x1024 .f32) (ix2 0 n)
      = ∑ k : Fin 2048, Cert.Spec.cat e ctx k * x5 (ix2 n k) := by
  refine (comb_matmul_apply _ _ n).trans ?_
  refine Finset.sum_congr rfl fun k _ => ?_
  rw [truncf_apply, concat_apply, transpose_ix2_apply, truncf_apply,
    show (fun k => a (ix2 0 k)) = e from funext ha, show (fun k => c (ix2 0 k)) = ctx from funext hc]

theorem pay4_apply (x0 x1 : Vec Ideal S1x1024 .f32) (x3 : Vec Ideal S15x2048 .f32) (x4 : Vec Ideal S1x15 .f32)
    (x2 : Vec Ideal S15x1024 .f32) (x5 : Vec Ideal S1024x2048 .f32) (x6 : Vec Ideal S1x1024 .f32) (n : Fin 1024) :
    k0_pay4 (F := Ideal) x0 x1 x3 x4 x2 x5 x6 (ix2 0 n)
      = Cert.Spec.affine
          (Cert.Spec.cat (fun k => x0 (ix2 0 k))
            (Cert.Spec.context (Cert.Spec.attnWeights (fun k => x0 (ix2 0 k)) (fun k => x1 (ix2 0 k)) (fun j k => x3 (ix2 j k)) (fun j => x4 (ix2 0 j)))
              (fun j n => x2 (ix2 j n))))
          (fun n k => x5 (ix2 n k)) (fun n => x6 (ix2 0 n)) n := by
  unfold k0_pay4 k0_pay2
  refine (addf_apply _ _ _).trans ?_
  unfold Cert.Spec.affine
  refine congrArg₂ (· + ·) ?_ ?_
  · exact comb_row_apply _ _ x5 _ _ (fun k => by rw [shapeCast_self]) (fun k => ctx_apply x0 x1 x3 x4 x2 k) n
  · rw [shapeCast_self]

theorem pay1_pay4_apply (x0 x1 : Vec Ideal S1x1024 .f32) (x3 : Vec Ideal S15x2048 .f32) (x4 : Vec Ideal S1x15 .f32) (x2 : Vec Ideal S15x1024 .f32) (x5 : Vec Ideal S1024x2048 .f32) (x6 : Vec Ideal S1x1024 .f32) (n : Fin 1024) :
    k0_pay1 (F := Ideal) (k0_pay4 x0 x1 x3 x4 x2 x5 x6) (Scalar.ofBits .f32 0x00000000#32) (ix2 0 n)
      = Cert.Spec.combined (fun k => x0 (ix2 0 k)) (fun k => x1 (ix2 0 k)) (fun j n => x2 (ix2 j n)) (fun j k => x3 (ix2 j k)) (fun j => x4 (ix2 0 j)) (fun n k => x5 (ix2 n k)) (fun n => x6 (ix2 0 n)) n := by
  unfold k0_pay1 Cert.Spec.combined
  refine (maximumf_apply _ _ _).trans ?_
  rw [broadcast_apply, pay4_apply]
  rfl

end Cert.KernelIdeal.PayVal

end
-- ==== Proof.PayGru.lean ====
import proofs.«411179_j26594437497554_3_alg».proof.Proof.Gen.KernelIdeal.Skeleton
import proofs.«411179_j26594437497554_3_alg».proof.Proof.Spec
import Idealize.ShloMosaic.Lib.ValueIdx
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

theorem dot_lhs_0 (i : S1x3072.Idx) (q : dot_S1x1024_S1024x3072_S1x3072_1_0_0_1_n_n.contr.Idx) :
    (dot_S1x1024_S1024x3072_S1x3072_1_0_0_1_n_n.lhsIdx i q 0).val = (i 0).val := by
  unfold DotDims.lhsIdx
  rw [dif_neg (show ¬(0 : Fin S1x1024.rank) ∈ dot_S1x1024_S1024x3072_S1x3072_1_0_0_1_n_n.lhsBatch by decide), dif_pos (show (0 : Fin S1x1024.rank) ∈ dot_S1x1024_S1024x3072_S1x3072_1_0_0_1_n_n.lhsNonContracting by decide)]
  rfl

theorem dot_lhs_1 (i : S1x3072.Idx) (q : dot_S1x1024_S1024x3072_S1x3072_1_0_0_1_n_n.contr.Idx) :
    (dot_S1x1024_S1024x3072_S1x3072_1_0_0_1_n_n.lhsIdx i q 1).val = (q ⟨0, by decide⟩).val :=
  dot_S1x1024_S1024x3072_S1x3072_1_0_0_1_n_n.lhsIdx_val_of_single rfl i q

theorem dot_rhs_0 (i : S1x3072.Idx) (q : dot_S1x1024_S1024x3072_S1x3072_1_0_0_1_n_n.contr.Idx) :
    (dot_S1x1024_S1024x3072_S1x3072_1_0_0_1_n_n.rhsIdx i q 0).val = (q ⟨0, by decide⟩).val :=
  dot_S1x1024_S1024x3072_S1x3072_1_0_0_1_n_n.rhsIdx_val_of_single rfl i q

theorem dot_rhs_1 (i : S1x3072.Idx) (q : dot_S1x1024_S1024x3072_S1x3072_1_0_0_1_n_n.contr.Idx) :
    (dot_S1x1024_S1024x3072_S1x3072_1_0_0_1_n_n.rhsIdx i q 1).val = (i 1).val := by
  unfold DotDims.rhsIdx
  rw [dif_neg (show ¬(1 : Fin S1024x3072.rank) ∈ dot_S1x1024_S1024x3072_S1x3072_1_0_0_1_n_n.rhsBatch by decide), dif_pos (show (1 : Fin S1024x3072.rank) ∈ dot_S1x1024_S1024x3072_S1x3072_1_0_0_1_n_n.rhsNonContracting by decide)]
  rfl

theorem matmul_row_apply (a : FVec Ideal S1x1024 .bf16) (b : FVec Ideal S1024x3072 .bf16) (q : Fin 3072) :
    matmul dot_S1x1024_S1024x3072_S1x3072_1_0_0_1_n_n none a b (constant S1x3072 .f32 0x00000000#32) (ix2 0 q)
      = ∑ k : Fin 1024, a (ix2 0 k) * b (ix2 k q) := by
  show FloatOps.matmul _ none a b _ (ix2 0 q) = _
  rw [Ideal.matmul_constant_zero_apply, ← Equiv.sum_comp (contrEquiv1 dot_S1x1024_S1024x3072_S1x3072_1_0_0_1_n_n 1024 rfl rfl).symm]
  refine Finset.sum_congr rfl fun k _ => ?_
  have hk := contrEquiv1_symm_val dot_S1x1024_S1024x3072_S1x3072_1_0_0_1_n_n 1024 rfl rfl k
  have el : dot_S1x1024_S1024x3072_S1x3072_1_0_0_1_n_n.lhsIdx (ix2 0 q) ((contrEquiv1 dot_S1x1024_S1024x3072_S1x3072_1_0_0_1_n_n 1024 rfl rfl).symm k) = ix2 0 k := funext fun ax => Fin.ext (by
    match ax with
    | ⟨0, _⟩ => exact dot_lhs_0 _ _
    | ⟨1, _⟩ => exact (dot_lhs_1 _ _).trans hk)
  have er : dot_S1x1024_S1024x3072_S1x3072_1_0_0_1_n_n.rhsIdx (ix2 0 q) ((contrEquiv1 dot_S1x1024_S1024x3072_S1x3072_1_0_0_1_n_n 1024 rfl rfl).symm k) = ix2 k q := funext fun ax => Fin.ext (by
    match ax with
    | ⟨0, _⟩ => exact (dot_rhs_0 _ _).trans hk
    | ⟨1, _⟩ => exact dot_rhs_1 _ _)
  rw [el, er]

theorem transpose_apply_kq {φ : FTy} (w : FVec Ideal S3072x1024 φ) (k : Fin 1024) (q : Fin 3072) :
    transpose S1024x3072 [1, 0] w transposes_S3072x1024_p1_0_S1024x3072 (ix2 k q) = w (ix2 q k) :=
  transpose_apply [1, 0] w transposes_S3072x1024_p1_0_S1024x3072 (ix2 k q) (ix2 q k) (fun b => match b with
    | ⟨0, _⟩ => rfl
    | ⟨1, _⟩ => rfl)

theorem row_times_transpose_apply (x : FVec Ideal S1x1024 .f32) (w : FVec Ideal S3072x1024 .f32) (q : Fin 3072) :
    matmul dot_S1x1024_S1024x3072_S1x3072_1_0_0_1_n_n none (truncf .bf16 x bitsLt_bf16_f32)
        (transpose S1024x3072 [1, 0] (truncf .bf16 w bitsLt_bf16_f32) transposes_S3072x1024_p1_0_S1024x3072)
        (constant S1x3072 .f32 0x00000000#32) (ix2 0 q)
      = ∑ k : Fin 1024, x (ix2 0 k) * w (ix2 q k) := by
  refine (matmul_row_apply _ _ q).trans ?_
  refine Finset.sum_congr rfl fun k _ => ?_
  rw [transpose_apply_kq]
  rfl

theorem outproj_apply (x0 : Vec Ideal S1x1024 .f32) (x1 : Vec Ideal S3072x1024 .f32) (x2 : Vec Ideal S1x3072 .f32) (q : Fin 3072) :
    k2_pay1 (F := Ideal) x0 x1 x2 (ix2 0 q) = (∑ k : Fin 1024, x0 (ix2 0 k) * x1 (ix2 q k)) + x2 (ix2 0 q) := by
  unfold k2_pay1
  rw [shapeCast_self, shapeCast_self]
  exact congrArg (· + x2 (ix2 0 q)) (row_times_transpose_apply x0 x1 q)

theorem slice0_apply (v : FVec Ideal S1x3072 .f32) (n : Fin 1024) :
    extractStridedSlice S1x1024 ![0, 0] v slices_S1x3072_o0_0_S1x1024 (ix2 0 n) = v (ix2 0 ⟨n.val, by omega⟩) :=
  extractStridedSlice_apply ![0, 0] v slices_S1x3072_o0_0_S1x1024 (ix2 0 n) (ix2 0 ⟨n.val, by omega⟩) (fun a => match a with
    | ⟨0, _⟩ => rfl
    | ⟨1, _⟩ => by show n.val = 0 + n.val; omega)

theorem slice1024_apply (v : FVec Ideal S1x3072 .f32) (n : Fin 1024) :
    extractStridedSlice S1x1024 ![0, 1024] v slices_S1x3072_o0_1024_S1x1024 (ix2 0 n) = v (ix2 0 ⟨n.val + 1024, by omega⟩) :=
  extractStridedSlice_apply ![0, 1024] v slices_S1x3072_o0_1024_S1x1024 (ix2 0 n) (ix2 0 ⟨n.val + 1024, by omega⟩) (fun a => match a with
    | ⟨0, _⟩ => rfl
    | ⟨1, _⟩ => by show n.val + 1024 = 1024 + n.val; omega)

theorem slice2048_apply (v : FVec Ideal S1x3072 .f32) (n : Fin 1024) :
    extractStridedSlice S1x1024 ![0, 2048] v slices_S1x3072_o0_2048_S1x1024 (ix2 0 n) = v (ix2 0 ⟨n.val + 2048, by omega⟩) :=
  extractStridedSlice_apply ![0, 2048] v slices_S1x3072_o0_2048_S1x1024 (ix2 0 n) (ix2 0 ⟨n.val + 2048, by omega⟩) (fun a => match a with
    | ⟨0, _⟩ => rfl
    | ⟨1, _⟩ => by show n.val + 2048 = 2048 + n.val; omega)

theorem gate_apply (x : FVec Ideal S1x1024 .f32) (w : FVec Ideal S3072x1024 .f32) (b : FVec Ideal S1x3072 .f32) (q : Fin 3072) :
    addf (matmul dot_S1x1024_S1024x3072_S1x3072_1_0_0_1_n_n none (truncf .bf16 x bitsLt_bf16_f32)
        (transpose S1024x3072 [1, 0] (truncf .bf16 w bitsLt_bf16_f32) transposes_S3072x1024_p1_0_S1024x3072)
        (constant S1x3072 .f32 0x00000000#32)) b (ix2 0 q)
      = (∑ k : Fin 1024, x (ix2 0 k) * w (ix2 q k)) + b (ix2 0 q) :=
  congrArg (· + b (ix2 0 q)) (row_times_transpose_apply x w q)

theorem gru_tail_apply (gi gh : FVec Ideal S1x3072 .f32) (h : FVec Ideal S1x1024 .f32) (n : Fin 1024) :
    addf
        (mulf
          (subf (broadcast S1x1024 (Scalar.ofBits .f32 0x3F800000#32 : Ideal .f32))
            (logistic (addf (extractStridedSlice S1x1024 ![0, 1024] gi slices_S1x3072_o0_1024_S1x1024)
              (extractStridedSlice S1x1024 ![0, 1024] gh slices_S1x3072_o0_1024_S1x1024))))
          (tanh (addf (extractStridedSlice S1x1024 ![0, 2048] gi slices_S1x3072_o0_2048_S1x1024)
            (mulf
              (logistic (addf (extractStridedSlice S1x1024 ![0, 0] gi slices_S1x3072_o0_0_S1x1024)
                (extractStridedSlice S1x1024 ![0, 0] gh slices_S1x3072_o0_0_S1x1024)))
              (extractStridedSlice S1x1024 ![0, 2048] gh slices_S1x3072_o0_2048_S1x1024)))))
        (mulf
          (logistic (addf (extractStridedSlice S1x1024 ![0, 1024] gi slices_S1x3072_o0_1024_S1x1024)
            (extractStridedSlice S1x1024 ![0, 1024] gh slices_S1x3072_o0_1024_S1x1024)))
          h) (ix2 0 n)
      = (Ideal.ofBits .f32 0x3F800000#32
            - Ideal.logistic (gi (ix2 0 ⟨n.val + 1024, by omega⟩) + gh (ix2 0 ⟨n.val + 1024, by omega⟩)))
          * Ideal.tanh (gi (ix2 0 ⟨n.val + 2048, by omega⟩)
              + Ideal.logistic (gi (ix2 0 ⟨n.val, by omega⟩) + gh (ix2 0 ⟨n.val, by omega⟩)) * gh (ix2 0 ⟨n.val + 2048, by omega⟩))
        + Ideal.logistic (gi (ix2 0 ⟨n.val + 1024, by omega⟩) + gh (ix2 0 ⟨n.val + 1024, by omega⟩)) * h (ix2 0 n) := by
  rw [← slice0_apply gi n, ← slice0_apply gh n, ← slice1024_apply gi n, ← slice1024_apply gh n,
    ← slice2048_apply gi n, ← slice2048_apply gh n]
  rfl

theorem gru_explicit (x0 x1 : Vec Ideal S1x1024 .f32) (x2 x3 : Vec Ideal S3072x1024 .f32) (x4 x5 : Vec Ideal S1x3072 .f32) (n : Fin 1024) :
    k1_pay1 (F := Ideal) x0 x1 x2 x3 x4 x5 (ix2 0 n)
      = (Ideal.ofBits .f32 0x3F800000#32
            - Ideal.logistic (((∑ k : Fin 1024, x0 (ix2 0 k) * x2 (ix2 ⟨n.val + 1024, by omega⟩ k)) + x4 (ix2 0 ⟨n.val + 1024, by omega⟩))
                + ((∑ k : Fin 1024, x1 (ix2 0 k) * x3 (ix2 ⟨n.val + 1024, by omega⟩ k)) + x5 (ix2 0 ⟨n.val + 1024, by omega⟩))))
          * Ideal.tanh (((∑ k : Fin 1024, x0 (ix2 0 k) * x2 (ix2 ⟨n.val + 2048, by omega⟩ k)) + x4 (ix2 0 ⟨n.val + 2048, by omega⟩))
              + Ideal.logistic (((∑ k : Fin 1024, x0 (ix2 0 k) * x2 (ix2 ⟨n.val, by omega⟩ k)) + x4 (ix2 0 ⟨n.val, by omega⟩))
                  + ((∑ k : Fin 1024, x1 (ix2 0 k) * x3 (ix2 ⟨n.val, by omega⟩ k)) + x5 (ix2 0 ⟨n.val, by omega⟩)))
                * ((∑ k : Fin 1024, x1 (ix2 0 k) * x3 (ix2 ⟨n.val + 2048, by omega⟩ k)) + x5 (ix2 0 ⟨n.val + 2048, by omega⟩)))
        + Ideal.logistic (((∑ k : Fin 1024, x0 (ix2 0 k) * x2 (ix2 ⟨n.val + 1024, by omega⟩ k)) + x4 (ix2 0 ⟨n.val + 1024, by omega⟩))
                + ((∑ k : Fin 1024, x1 (ix2 0 k) * x3 (ix2 ⟨n.val + 1024, by omega⟩ k)) + x5 (ix2 0 ⟨n.val + 1024, by omega⟩)))
          * x1 (ix2 0 n) := by
  unfold k1_pay1
  rw [shapeCast_self x0, shapeCast_self x1, shapeCast_self x4, shapeCast_self x5]
  refine (gru_tail_apply _ _ x1 n).trans ?_
  rw [gate_apply x0 x2 x4, gate_apply x0 x2 x4, gate_apply x0 x2 x4, gate_apply x1 x3 x5, gate_apply x1 x3 x5, gate_apply x1 x3 x5]

theorem gru_apply (x0 x1 : Vec Ideal S1x1024 .f32) (x2 x3 : Vec Ideal S3072x1024 .f32) (x4 x5 : Vec Ideal S1x3072 .f32) (n : Fin 1024) :
    k1_pay1 (F := Ideal) x0 x1 x2 x3 x4 x5 (ix2 0 n)
      = Cert.Spec.gru (fun k => x0 (ix2 0 k)) (fun k => x1 (ix2 0 k)) (fun r k => x2 (ix2 r k)) (fun r k => x3 (ix2 r k)) (fun r => x4 (ix2 0 r)) (fun r => x5 (ix2 0 r)) n :=
  gru_explicit x0 x1 x2 x3 x4 x5 n

end Cert.KernelIdeal.PayVal

end
-- ==== Proof.RowsK.lean ====
import proofs.«411179_j26594437497554_3_alg».proof.Proof.ValR0
import proofs.«411179_j26594437497554_3_alg».proof.Proof.ValR1
import proofs.«411179_j26594437497554_3_alg».proof.Proof.PayAttn
import proofs.«411179_j26594437497554_3_alg».proof.Proof.PayComb
import proofs.«411179_j26594437497554_3_alg».proof.Proof.PayGru
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem attn_row (c : Dev nD) (j : Fin 15) : (dat0 V c).arrAt 7 cfg0.N (ix2 0 j) = Cert.Spec.attnWeights (fun k => V c (Pipeline.arrRef spec0 0) (ix2 0 k)) (fun k => V c (Pipeline.arrRef spec0 1) (ix2 0 k)) (fun j k => V c (Pipeline.arrRef spec0 3) (ix2 j k)) (fun j => V c (Pipeline.arrRef spec0 4) (ix2 0 j)) j :=
  (congrFun (arr0_7 V c) (ix2 0 j)).trans (PayVal.pay3_apply (V c (Pipeline.arrRef spec0 0)) (V c (Pipeline.arrRef spec0 1)) (V c (Pipeline.arrRef spec0 3)) (V c (Pipeline.arrRef spec0 4)) j)

theorem comb_row (c : Dev nD) (n : Fin 1024) : (dat0 V c).arrAt 8 cfg0.N (ix2 0 n) = Cert.Spec.combined (fun k => V c (Pipeline.arrRef spec0 0) (ix2 0 k)) (fun k => V c (Pipeline.arrRef spec0 1) (ix2 0 k)) (fun j n => V c (Pipeline.arrRef spec0 2) (ix2 j n)) (fun j k => V c (Pipeline.arrRef spec0 3) (ix2 j k)) (fun j => V c (Pipeline.arrRef spec0 4) (ix2 0 j)) (fun n k => V c (Pipeline.arrRef spec0 5) (ix2 n k)) (fun n => V c (Pipeline.arrRef spec0 6) (ix2 0 n)) n :=
  (congrFun (arr0_8 V c) (ix2 0 n)).trans (PayVal.pay1_pay4_apply (V c (Pipeline.arrRef spec0 0)) (V c (Pipeline.arrRef spec0 1)) (V c (Pipeline.arrRef spec0 3)) (V c (Pipeline.arrRef spec0 4)) (V c (Pipeline.arrRef spec0 2)) (V c (Pipeline.arrRef spec0 5)) (V c (Pipeline.arrRef spec0 6)) n)

theorem gru_row (c : Dev nD) (n : Fin 1024) : (dat1 V c).arrAt 6 cfg1.N (ix2 0 n) = Cert.Spec.gru (fun k => V c (Pipeline.arrRef spec1 0) (ix2 0 k)) (fun k => V c (Pipeline.arrRef spec1 1) (ix2 0 k)) (fun r k => V c (Pipeline.arrRef spec1 2) (ix2 r k)) (fun r k => V c (Pipeline.arrRef spec1 3) (ix2 r k)) (fun r => V c (Pipeline.arrRef spec1 4) (ix2 0 r)) (fun r => V c (Pipeline.arrRef spec1 5) (ix2 0 r)) n :=
  (congrFun (arr1_6 V c) (ix2 0 n)).trans (PayVal.gru_apply (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) n)

end Cert.KernelIdeal.Hand
-- ==== Proof.ValR2.lean ====
import proofs.«411179_j26594437497554_3_alg».proof.Proof.FrameR2
import proofs.«411179_j26594437497554_3_alg».proof.Proof.PayGru

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev hidV (c : Dev nD) : S1x1024.Idx → Elt Ideal .f32 := V c (Pipeline.arrRef spec2 0)
abbrev wV (c : Dev nD) : S50257x1024.Idx → Elt Ideal .f32 := V c (Pipeline.arrRef spec2 1)
abbrev bV (c : Dev nD) : S1x50257.Idx → Elt Ideal .f32 := V c (Pipeline.arrRef spec2 2)

def logitsOf (c : Dev nD) : S1x50257.Idx → Elt Ideal .f32 := fun i =>
  (∑ k : Fin 1024, hidV V c (ix2 0 k) * wV V c (ix2 (i 1) k)) + bV V c (ix2 0 (i 1))

theorem tile_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_3.xsize (grid2.coords t) (0 : Fin 2) = 1
    ∧ ((t.val < 16 ∧ win2_3.xsize (grid2.coords t) (1 : Fin 2) = 3072) ∨ (t.val = 16 ∧ win2_3.xsize (grid2.coords t) (1 : Fin 2) = 1105)) :=
  (by decide +kernel : ∀ t : Fin grid2.N, _)

theorem hid_entry (c : Dev nD) (t : Fin cfg2.N) (k : Fin 1024) :
    (iblk2 V c 0 t : S1x1024.Idx → Elt Ideal .f32) (ix2 0 k) = hidV V c (ix2 0 k) := by
  obtain ⟨f00, f01, -⟩ := tile_facts t
  show hidV V c (((cfg2.win 0).blk t).view.emb (ix2 0 k)) = hidV V c (ix2 0 k)
  refine congrArg (hidV V c) (funext fun a => Fin.ext ?_)
  match a with
  | ⟨0, _⟩ => show win2_0.index t (0 : Fin 2) * 1 + 1 * 0 = 0; omega
  | ⟨1, _⟩ => show win2_0.index t (1 : Fin 2) * 1024 + 1 * k.val = k.val; omega

theorem wtile_entry (c : Dev nD) (t : Fin cfg2.N) (q : Fin 3072) (hq : q.val < win2_3.xsize (grid2.coords t) 1)
    (r : Fin 50257) (hr : r.val = t.val * 3072 + q.val) (k : Fin 1024) :
    wblk2 V c t (ix2 q k) = wV V c (ix2 r k) := by
  obtain ⟨-, -, f10, f11, -⟩ := tile_facts t
  have e : (ix2 q k : S3072x1024.Idx) = win2_1.xinj (grid2.coords t)
      (fun a => match a with | ⟨0, _⟩ => ⟨q.val, Nat.lt_of_lt_of_eq hq (xsize2_1_0 t).symm⟩ | ⟨1, _⟩ => ⟨k.val, k.isLt⟩) :=
    funext fun a => match a with | ⟨0, _⟩ => rfl | ⟨1, _⟩ => rfl
  rw [e, wblk2_xinj]
  show wV V c (((cfg2.win 1).blk t).view.emb _) = wV V c (ix2 r k)
  refine congrArg (wV V c) (funext fun a => Fin.ext ?_)
  match a with
  | ⟨0, _⟩ => show win2_1.index t (0 : Fin 2) * 3072 + 1 * q.val = r.val; omega
  | ⟨1, _⟩ => show win2_1.index t (1 : Fin 2) * 1024 + 1 * k.val = k.val; omega

theorem btile_entry (c : Dev nD) (t : Fin cfg2.N) (q : Fin 3072) (hq : q.val < win2_3.xsize (grid2.coords t) 1)
    (r : Fin 50257) (hr : r.val = t.val * 3072 + q.val) :
    bblk2 V c t (ix2 0 q) = bV V c (ix2 0 r) := by
  obtain ⟨-, -, -, -, f20, f21, -, -, fx0, -⟩ := tile_facts t
  have e : (ix2 0 q : S1x3072.Idx) = win2_2.xinj (grid2.coords t)
      (fun a => match a with | ⟨0, _⟩ => ⟨0, by show 0 < win2_3.xsize (grid2.coords t) (0 : Fin 2); omega⟩ | ⟨1, _⟩ => ⟨q.val, Nat.lt_of_lt_of_eq hq (xsize2_2 t 1).symm⟩) :=
    funext fun a => match a with | ⟨0, _⟩ => rfl | ⟨1, _⟩ => rfl
  rw [e, bblk2_xinj]
  show bV V c (((cfg2.win 2).blk t).view.emb _) = bV V c (ix2 0 r)
  refine congrArg (bV V c) (funext fun a => Fin.ext ?_)
  match a with
  | ⟨0, _⟩ => show win2_2.index t (0 : Fin 2) * 1 + 1 * 0 = 0; omega
  | ⟨1, _⟩ => show win2_2.index t (1 : Fin 2) * 3072 + 1 * q.val = r.val; omega

theorem tile_entry (c : Dev nD) (t : Fin cfg2.N) (q : Fin 3072) (hq : q.val < win2_3.xsize (grid2.coords t) 1)
    (r : Fin 50257) (hr : r.val = t.val * 3072 + q.val) :
    k2_pay1 (F := Ideal) (iblk2 V c 0 t) (wblk2 V c t) (bblk2 V c t) (ix2 0 q)
      = (∑ k : Fin 1024, hidV V c (ix2 0 k) * wV V c (ix2 r k)) + bV V c (ix2 0 r) := by
  rw [PayVal.outproj_apply, btile_entry V c t q hq r hr]
  congr 1
  exact Finset.sum_congr rfl fun k _ => by rw [hid_entry V c t k, wtile_entry V c t q hq r hr k]

theorem flushed2_3_eq (c : Dev nD) (t : Fin cfg2.N) :
    (dat2 V c).flushed 3 t = ((cfg2.win 3).blk t).view.read (Elt Ideal) (logitsOf V c) := by
  obtain ⟨-, -, -, -, -, -, f30, f31, fx0, -⟩ := tile_facts t
  funext j
  have hj0 : (j 0).val < win2_3.xsize (grid2.coords t) 0 := (j 0).isLt
  have hj1 : (j 1).val < win2_3.xsize (grid2.coords t) 1 := (j 1).isLt
  have hq : (j 1).val < 3072 := Nat.lt_of_lt_of_le hj1 (win2_3.xsize_le _ 1)
  have hr : ((((cfg2.win 3).blk t).view.emb j) 1).val = t.val * 3072 + (j 1).val := by
    show win2_3.index t (1 : Fin 2) * 3072 + 1 * (j 1).val = _; omega
  have ej : win2_3.xinj (grid2.coords t) j = ix2 0 ⟨(j 1).val, hq⟩ :=
    funext fun a => match a with
      | ⟨0, _⟩ => Fin.ext (by show (j 0).val = 0; omega)
      | ⟨1, _⟩ => rfl
  show (cfg2.win 3).cut (cfg2.grid.coords t) ((dat2 V c).after 3 t) j = logitsOf V c (((cfg2.win 3).blk t).view.emb j)
  rw [flushed2_3_apply V c t j, ej, tile_entry V c t ⟨(j 1).val, hq⟩ hj1 _ hr]
  rfl

theorem mem_blk2_3 (t : Fin cfg2.N) (i : S1x50257.Idx) :
    i ∈ ((cfg2.win 3).blk t).view.set ↔ ∀ a : Fin 2, win2_3.index t a * S1x3072.size a ≤ (i a).val ∧ (i a).val < win2_3.index t a * S1x3072.size a + win2_3.xsize (grid2.coords t) a := by
  show i ∈ ((View.whole main_v9).slice (win2_3.rect t)).set ↔ _
  rw [View.set_slice_whole, Rect.mem_set_unit]
  exact Iff.rfl

theorem covered2_3 (i : S1x50257.Idx) : ∃ t : Fin cfg2.N, (cfg2.win 3).flush t = true ∧ i ∈ ((cfg2.win 3).blk t).view.set := by
  have hi0 : (i 0).val < 1 := (i 0).isLt
  have hi1 : (i 1).val < 50257 := (i 1).isLt
  have hN : cfg2.N = 17 := N_2
  let t : Fin cfg2.N := ⟨(i 1).val / 3072, by rw [hN]; omega⟩
  have ht : t.val = (i 1).val / 3072 := rfl
  obtain ⟨-, -, -, -, -, -, f30, f31, fx0, fx1⟩ := tile_facts t
  refine ⟨t, flush2_3 t, ?_⟩
  rw [mem_blk2_3]
  intro a
  match a with
  | ⟨0, _⟩ => show win2_3.index t (0 : Fin 2) * 1 ≤ (i 0).val ∧ (i 0).val < win2_3.index t (0 : Fin 2) * 1 + win2_3.xsize (grid2.coords t) (0 : Fin 2); omega
  | ⟨1, _⟩ => show win2_3.index t (1 : Fin 2) * 3072 ≤ (i 1).val ∧ (i 1).val < win2_3.index t (1 : Fin 2) * 3072 + win2_3.xsize (grid2.coords t) (1 : Fin 2); omega

theorem final2_3 (c : Dev nD) : (dat2 V c).arrAt 3 cfg2.N = logitsOf V c :=
  (dat2 V c).arrAt_eq_of_cover 3 (logitsOf V c) (fun t _ => flushed2_3_eq V c t) (covered2_3)

theorem arr2_3 (c : Dev nD) (v : Fin 50257) :
    ((dat2 V c).arrAt 3 cfg2.N : S1x50257.Idx → Elt Ideal .f32) (ix2 0 v)
      = (∑ k : Fin 1024, hidV V c (ix2 0 k) * wV V c (ix2 v k)) + bV V c (ix2 0 v) :=
  congrFun (final2_3 V c) (ix2 0 v)

end Cert.KernelIdeal.Hand

end
-- ==== Proof.KernelVal.lean ====
import proofs.«411179_j26594437497554_3_alg».proof.Proof.FrameRunR
import proofs.«411179_j26594437497554_3_alg».proof.Proof.HostIn
import proofs.«411179_j26594437497554_3_alg».proof.Proof.Embed
import proofs.«411179_j26594437497554_3_alg».proof.Proof.TailK
import proofs.«411179_j26594437497554_3_alg».proof.Proof.RowsK
import proofs.«411179_j26594437497554_3_alg».proof.Proof.ValR2
import Idealize.ShloMosaic.Lib.ValueIdx

set_option maxRecDepth 16384

noncomputable section

namespace Cert.KernelIdeal.Hand

open Cert.KernelIdeal Cert.KernelIdeal.Gen Cert.KernelIdeal.Keep
open Idealize.ShloMosaic Idealize.ShloMosaic.TcCoe Idealize.ShloMosaic.ValueIdx Idealize.SL.Sem

variable (m : (ℓ : Loc nD τ sig) → Buf (Elt Ideal) ℓ)

theorem W5_keep (c : Dev nD) (r : Ref sig .tc) (h9 : r ≠ main_v9) : W5 m c r = W4 m c r := by
  by_cases h : ∃ w, Pipeline.arrRef spec2 w = r
  · obtain ⟨w, rfl⟩ := h
    have hin : (cfg2.win w).isOut = false := by
      match w with
      | ⟨0, _⟩ => rfl | ⟨1, _⟩ => rfl | ⟨2, _⟩ => rfl
      | ⟨3, _⟩ => exact absurd rfl h9
    exact (W5_arr m c w).trans (((dat2 (V4 m) c).arrAt_in w hin _).trans (A_eq2 (V4 m) c w))
  · exact W5_of_ne m c r fun w e => h ⟨w, e⟩

theorem W7_arg (c : Dev nD) (r : Ref sig .tc) (hr : r ∈ argRefs) :
    W7 m c r = m ((c : Dev nD), (r : DevRef τ sig)) :=
  have ⟨⟨h1, h2, h3, h4, h5, h6, h7, h8⟩, _⟩ := args_clear r hr
  (keep3_1 _ r h4).trans <| (keep3 _ r h3).trans <| (W5_keep m c r h8).trans <| (W4_keep m c r h7).trans <|
    (W3_keep m c r h5 h6).trans <| (keep0_1 _ r h2).trans <| (keep0 _ r h1).trans rfl

theorem W2_arg (c : Dev nD) (r : Ref sig .tc) (h1 : r ∉ hostOps0_W) (h2 : r ∉ hostOps0_1_W) :
    W2 m c r = m ((c : Dev nD), (r : DevRef τ sig)) :=
  (keep0_1 _ r h2).trans ((keep0 _ r h1).trans rfl)

theorem W2_hidden (c : Dev nD) (k : Fin 1024) : W2 m c main_v1 (ix2 0 k) = m ((c : Dev nD), (main_arg1 : DevRef τ sig)) (ix3 0 0 k) :=
  (HostIn.v1_apply (W1 m c) k).trans (congrFun (keep0 _ main_arg1 (by decide)) _)
theorem W2_attnBias (c : Dev nD) (j : Fin 15) : W2 m c main_v2 (ix2 0 j) = m ((c : Dev nD), (main_arg5 : DevRef τ sig)) (ix1 j) :=
  (HostIn.v2_apply (W1 m c) j).trans (congrFun (keep0 _ main_arg5 (by decide)) _)
theorem W2_combBias (c : Dev nD) (n : Fin 1024) : W2 m c main_v3 (ix2 0 n) = m ((c : Dev nD), (main_arg7 : DevRef τ sig)) (ix1 n) :=
  (HostIn.v3_apply (W1 m c) n).trans (congrFun (keep0 _ main_arg7 (by decide)) _)
theorem W2_ihBias (c : Dev nD) (r : Fin 3072) : W2 m c main_v4 (ix2 0 r) = m ((c : Dev nD), (main_arg10 : DevRef τ sig)) (ix1 r) :=
  (HostIn.v4_apply (W1 m c) r).trans (congrFun (keep0 _ main_arg10 (by decide)) _)
theorem W2_hhBias (c : Dev nD) (r : Fin 3072) : W2 m c main_v5 (ix2 0 r) = m ((c : Dev nD), (main_arg11 : DevRef τ sig)) (ix1 r) :=
  (HostIn.v5_apply (W1 m c) r).trans (congrFun (keep0 _ main_arg11 (by decide)) _)
theorem W2_outBias (c : Dev nD) (v : Fin 50257) : W2 m c main_v6 (ix2 0 v) = m ((c : Dev nD), (main_arg13 : DevRef τ sig)) (ix1 v) :=
  (HostIn.v6_apply (W1 m c) v).trans (congrFun (keep0 _ main_arg13 (by decide)) _)

abbrev eRow (c : Dev nD) : Fin 1024 → EReal := fun k =>
  Embed.gatheredRow (m ((c : Dev nD), (main_arg0 : DevRef τ sig))) (m ((c : Dev nD), (main_arg3 : DevRef τ sig))) (ix2 0 k)
abbrev hRow (c : Dev nD) : Fin 1024 → EReal := fun k => m ((c : Dev nD), (main_arg1 : DevRef τ sig)) (ix3 0 0 k)
abbrev encM (c : Dev nD) : Fin 15 → Fin 1024 → EReal := fun j n => m ((c : Dev nD), (main_arg2 : DevRef τ sig)) (ix2 j n)
abbrev attnM (c : Dev nD) : Fin 15 → Fin 2048 → EReal := fun j k => m ((c : Dev nD), (main_arg4 : DevRef τ sig)) (ix2 j k)
abbrev attnB (c : Dev nD) : Fin 15 → EReal := fun j => m ((c : Dev nD), (main_arg5 : DevRef τ sig)) (ix1 j)
abbrev combM (c : Dev nD) : Fin 1024 → Fin 2048 → EReal := fun n k => m ((c : Dev nD), (main_arg6 : DevRef τ sig)) (ix2 n k)
abbrev combB (c : Dev nD) : Fin 1024 → EReal := fun n => m ((c : Dev nD), (main_arg7 : DevRef τ sig)) (ix1 n)
abbrev ihM (c : Dev nD) : Fin 3072 → Fin 1024 → EReal := fun r k => m ((c : Dev nD), (main_arg8 : DevRef τ sig)) (ix2 r k)
abbrev hhM (c : Dev nD) : Fin 3072 → Fin 1024 → EReal := fun r k => m ((c : Dev nD), (main_arg9 : DevRef τ sig)) (ix2 r k)
abbrev ihB (c : Dev nD) : Fin 3072 → EReal := fun r => m ((c : Dev nD), (main_arg10 : DevRef τ sig)) (ix1 r)
abbrev hhB (c : Dev nD) : Fin 3072 → EReal := fun r => m ((c : Dev nD), (main_arg11 : DevRef τ sig)) (ix1 r)
abbrev outM (c : Dev nD) : Fin 50257 → Fin 1024 → EReal := fun v k => m ((c : Dev nD), (main_arg12 : DevRef τ sig)) (ix2 v k)
abbrev outB (c : Dev nD) : Fin 50257 → EReal := fun v => m ((c : Dev nD), (main_arg13 : DevRef τ sig)) (ix1 v)

abbrev xRow (c : Dev nD) : Fin 1024 → EReal :=
  Cert.Spec.combined (eRow m c) (hRow m c) (encM m c) (attnM m c) (attnB m c) (combM m c) (combB m c)
abbrev newRow (c : Dev nD) : Fin 1024 → EReal := Cert.Spec.gru (xRow m c) (hRow m c) (ihM m c) (hhM m c) (ihB m c) (hhB m c)

section
variable (hpre : Cert.Pre_KernelIdeal m)
include hpre

theorem W2_embedded (c : Dev nD) (k : Fin 1024) : W2 m c main_v0 (ix2 0 k) = eRow m c k :=
  congrFun (Embed.embedded_eq m hpre c) (ix2 0 k)

theorem W3_attn (c : Dev nD) (j : Fin 15) :
    W3 m c main_v7_0 (ix2 0 j) = Cert.Spec.attnWeights (eRow m c) (hRow m c) (attnM m c) (attnB m c) j := by
  refine (congrFun (W3_arr m c 7) (ix2 0 j)).trans ((attn_row (V2 m) c j).trans ?_)
  refine congrArg (fun f : Fin 15 → EReal => f j) ?_
  refine congr (congr (congr (congrArg Cert.Spec.attnWeights ?_) ?_) ?_) ?_
  · exact funext fun k => W2_embedded m hpre c k
  · exact funext fun k => W2_hidden m c k
  · exact funext fun j => funext fun k => congrFun (W2_arg m c main_arg4 (by decide) (by decide)) (ix2 j k)
  · exact funext fun j => W2_attnBias m c j

theorem W3_comb (c : Dev nD) (n : Fin 1024) : W3 m c main_v7_1 (ix2 0 n) = xRow m c n := by
  refine (congrFun (W3_arr m c 8) (ix2 0 n)).trans ((comb_row (V2 m) c n).trans ?_)
  refine congrArg (fun f : Fin 1024 → EReal => f n) ?_
  refine congr (congr (congr (congr (congr (congr (congrArg Cert.Spec.combined ?_) ?_) ?_) ?_) ?_) ?_) ?_
  · exact funext fun k => W2_embedded m hpre c k
  · exact funext fun k => W2_hidden m c k
  · exact funext fun j => funext fun n => congrFun (W2_arg m c main_arg2 (by decide) (by decide)) (ix2 j n)
  · exact funext fun j => funext fun k => congrFun (W2_arg m c main_arg4 (by decide) (by decide)) (ix2 j k)
  · exact funext fun j => W2_attnBias m c j
  · exact funext fun n => funext fun k => congrFun (W2_arg m c main_arg6 (by decide) (by decide)) (ix2 n k)
  · exact funext fun n => W2_combBias m c n

theorem W4_hidden (c : Dev nD) (n : Fin 1024) : W4 m c main_v8 (ix2 0 n) = newRow m c n := by
  refine (congrFun (W4_arr m c 6) (ix2 0 n)).trans ((gru_row (V3 m) c n).trans ?_)
  refine congrArg (fun f : Fin 1024 → EReal => f n) ?_
  refine congr (congr (congr (congr (congr (congrArg Cert.Spec.gru ?_) ?_) ?_) ?_) ?_) ?_
  · exact funext fun k => W3_comb m hpre c k
  · exact funext fun k => (congrFun (W3_keep m c main_v1 (by decide) (by decide)) (ix2 0 k)).trans (W2_hidden m c k)
  · exact funext fun r => funext fun k => (congrFun (W3_keep m c main_arg8 (by decide) (by decide)) (ix2 r k)).trans
      (congrFun (W2_arg m c main_arg8 (by decide) (by decide)) (ix2 r k))
  · exact funext fun r => funext fun k => (congrFun (W3_keep m c main_arg9 (by decide) (by decide)) (ix2 r k)).trans
      (congrFun (W2_arg m c main_arg9 (by decide) (by decide)) (ix2 r k))
  · exact funext fun r => (congrFun (W3_keep m c main_v4 (by decide) (by decide)) (ix2 0 r)).trans (W2_ihBias m c r)
  · exact funext fun r => (congrFun (W3_keep m c main_v5 (by decide) (by decide)) (ix2 0 r)).trans (W2_hhBias m c r)

theorem W5_logits (c : Dev nD) (v : Fin 50257) :
    W5 m c main_v9 (ix2 0 v) = Cert.Spec.logits (newRow m c) (outM m c) (outB m c) v := by
  refine (congrFun (W5_arr m c 3) (ix2 0 v)).trans ((arr2_3 (V4 m) c v).trans ?_)
  unfold Cert.Spec.logits Cert.Spec.affine
  refine congr (congrArg HAdd.hAdd (Finset.sum_congr rfl fun k _ => congr (congrArg HMul.hMul ?_) ?_)) ?_
  · exact W4_hidden m hpre c k
  · exact (congrFun (W4_keep m c main_arg12 (by decide)) (ix2 v k)).trans
      ((congrFun (W3_keep m c main_arg12 (by decide) (by decide)) (ix2 v k)).trans
        (congrFun (W2_arg m c main_arg12 (by decide) (by decide)) (ix2 v k)))
  · exact (congrFun (W4_keep m c main_v6 (by decide)) (ix2 0 v)).trans
      ((congrFun (W3_keep m c main_v6 (by decide) (by decide)) (ix2 0 v)).trans (W2_outBias m c v))

theorem W7_attn (c : Dev nD) (j : Fin 15) :
    W7 m c main_v7_0 (ix2 0 j) = Cert.Spec.attnWeights (eRow m c) (hRow m c) (attnM m c) (attnB m c) j :=
  (congrFun ((keep3_1 _ main_v7_0 (by decide)).trans <| (keep3 _ main_v7_0 (by decide)).trans <|
    (W5_keep m c main_v7_0 (by decide)).trans (W4_keep m c main_v7_0 (by decide))) (ix2 0 j)).trans (W3_attn m hpre c j)

end

theorem W7_hidden (c : Dev nD) : W7 m c main_v11 = Tail.rerank (W4 m c main_v8) :=
  (Tail.tail_hidden (W6 m c)).trans (congrArg Tail.rerank ((keep3 _ main_v8 (by decide)).trans (W5_keep m c main_v8 (by decide))))

theorem W7_logprobs (c : Dev nD) : W7 m c main_v10 = Tail.logSoftmaxRow (W5 m c main_v9) :=
  (keep3_1 _ main_v10 (by decide)).trans (Tail.tail_logits (W5 m c))

end Cert.KernelIdeal.Hand

end
-- ==== Proof.RefAttn.lean ====
import proofs.«411179_j26594437497554_3_alg».proof.Proof.ReadP
import proofs.«411179_j26594437497554_3_alg».proof.Proof.Spec
import Idealize.ShloMosaic.Lib.Pipeline.Value
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefVal

open Cert.ReferenceIdeal Cert.ReferenceIdeal.Gen Cert.ReferenceIdeal.Read Idealize.ShloMosaic Idealize.ShloMosaic.ValueIdx

theorem idx7 (m : Fin 1024) : idx_main_v7 (ix2 0 m) = ix3 0 0 m :=
  funext fun a => Fin.ext (by
    match a with
    | ⟨0, _⟩ => rfl
    | ⟨1, _⟩ => rfl
    | ⟨2, _⟩ => show (0 * 1024 + m.val) % 1024 = m.val; have := m.isLt; omega)

theorem lidx10 (j : Fin 15) (k : Fin 2048) : lidx_main_v10 (ix2 0 j) k = ix2 0 k :=
  funext fun a => Fin.ext (by match a with | ⟨0, _⟩ => rfl | ⟨1, _⟩ => rfl)

theorem ridx10 (j : Fin 15) (k : Fin 2048) : idx_main_v9 (ridx_main_v10 (ix2 0 j) k) = ix2 j k :=
  funext fun a => Fin.ext (by match a with | ⟨0, _⟩ => rfl | ⟨1, _⟩ => rfl)

theorem idx11 (j : Fin 15) : idx_main_v11 (ix2 0 j) = ix1 j :=
  funext fun a => Fin.ext (by match a with | ⟨0, _⟩ => rfl)

theorem idx20 (i : S1.Idx) (k : Fin 15) : idx_main_v20 i k = ix2 0 k :=
  funext fun a => Fin.ext (by
    match a with
    | ⟨0, _⟩ => exact Nat.lt_one_iff.1 (i 0).isLt
    | ⟨1, _⟩ => rfl)

theorem lidx24 (n : Fin 1024) (j : Fin 15) : lidx_main_v24 (ix2 0 n) j = ix2 0 j :=
  funext fun a => Fin.ext (by match a with | ⟨0, _⟩ => rfl | ⟨1, _⟩ => rfl)

theorem ridx24 (n : Fin 1024) (j : Fin 15) : ridx_main_v24 (ix2 0 n) j = ix2 j n :=
  funext fun a => Fin.ext (by match a with | ⟨0, _⟩ => rfl | ⟨1, _⟩ => rfl)

theorem lidx27 (n : Fin 1024) (k : Fin 2048) : lidx_main_v27 (ix2 0 n) k = ix2 0 k :=
  funext fun a => Fin.ext (by match a with | ⟨0, _⟩ => rfl | ⟨1, _⟩ => rfl)

theorem ridx27 (n : Fin 1024) (k : Fin 2048) : idx_main_v26 (ridx_main_v27 (ix2 0 n) k) = ix2 n k :=
  funext fun a => Fin.ext (by match a with | ⟨0, _⟩ => rfl | ⟨1, _⟩ => rfl)

theorem idx28 (n : Fin 1024) : idx_main_v28 (ix2 0 n) = ix1 n :=
  funext fun a => Fin.ext (by match a with | ⟨0, _⟩ => rfl)

theorem concat_apply (u v : (⟨S1x1024, .f32⟩ : BufTy).Contents (Elt Ideal)) (k : Fin 2048) :
    concatenate S1x2048 1 [⟨S1x1024, u⟩, ⟨S1x1024, v⟩] concatenates_S1x1024_S1x1024_S1x2048_d1 (ix2 0 k)
      = Cert.Spec.cat (fun k => u (ix2 0 k)) (fun k => v (ix2 0 k)) k := by
  unfold Cert.Spec.cat
  by_cases hk : k.val < 1024
  · rw [dif_pos hk]
    exact concatenate_pair_apply_left (1 : Fin S1x2048.rank) u v concatenates_S1x1024_S1x1024_S1x2048_d1 (ix2 0 k) rfl
      (ix2 0 ⟨k.val, hk⟩) (fun b => by match b with | ⟨0, _⟩ => rfl | ⟨1, _⟩ => rfl)
  · rw [dif_neg hk]
    exact concatenate_pair_apply_right (1 : Fin S1x2048.rank) u v concatenates_S1x1024_S1x1024_S1x2048_d1 (ix2 0 k) rfl rfl
      (ix2 0 ⟨k.val - 1024, by have := k.isLt; omega⟩)
      (fun b hb => by match b, hb with | ⟨0, _⟩, _ => rfl | ⟨1, _⟩, hb => exact absurd rfl hb)
      (by show (k.val - 1024) + 1024 = k.val; omega)

theorem embedHidden_apply (x0 : (⟨S1, .i32⟩ : BufTy).Contents (Elt Ideal)) (x1 : (⟨S1x1x1024, .f32⟩ : BufTy).Contents (Elt Ideal)) (x3 : (⟨S50257x1024, .f32⟩ : BufTy).Contents (Elt Ideal)) (k : Fin 2048) :
    val_main_v8 (F := Ideal) x0 x1 x3 (ix2 0 k) = Cert.Spec.cat (fun k => val_main_v6 (F := Ideal) x0 x3 (ix2 0 k)) (fun k => x1 (ix3 0 0 k)) k := by
  unfold val_main_v8
  refine (concat_apply _ _ k).trans ?_
  have e : (fun m : Fin 1024 => val_main_v7 (F := Ideal) x1 (ix2 0 m)) = fun m => x1 (ix3 0 0 m) :=
    funext fun m => (val_main_v7_apply x1 (ix2 0 m)).trans (congrArg x1 (idx7 m))
  rw [e]

theorem logit_apply (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (j : Fin 15) :
    val_main_v12 (F := Ideal) x0 x1 x3 x4 x5 (ix2 0 j)
      = Cert.Spec.affine (Cert.Spec.cat (fun k => val_main_v6 (F := Ideal) x0 x3 (ix2 0 k)) (fun k => x1 (ix3 0 0 k))) (fun j k => x4 (ix2 j k)) (fun j => x5 (ix1 j)) j := by
  rw [val_main_v12_apply, val_main_v10_apply, val_main_v11_apply, Ideal.addf_def]
  unfold Cert.Spec.affine
  refine congrArg₂ (· + ·) (Finset.sum_congr rfl fun k _ => ?_) (congrArg x5 (idx11 j))
  rw [lidx10, val_main_v9_apply, ridx10, embedHidden_apply]

theorem negInf : Ideal.ofBits .f32 0xFF800000#32 = (⊥ : EReal) := by simp [Ideal.ofBits, Ideal.ieee]

theorem rowMax_apply (x : (⟨S1x15, .f32⟩ : BufTy).Contents (Elt Ideal)) (i : S1.Idx) :
    Host.reduce (FloatOps.maximumf (F := Ideal) (φ := .f32)) x (val_main_cst (F := Ideal)) reducesTo_S1x15_S1_d1 h_S_ i
      = Cert.Spec.rowMax (fun k => x (ix2 0 k)) := by
  have hr : S1x15.Reduces [1] S1 := by decide
  rw [Host.reduce_eq_fold_single _ x _ reducesTo_S1x15_S1_d1 hr h_S_ i, val_main_cst_apply, Ideal.ofBits_def, negInf]
  have e : x ∘ hr.lift i = fun k : Fin 15 => x (ix2 0 k) :=
    funext fun k => congrArg x (funext fun a => Fin.ext (by
      match a with
      | ⟨0, h0⟩ => exact Nat.lt_one_iff.1 (hr.lift i k ⟨0, h0⟩).isLt
      | ⟨1, _⟩ => rfl))
  unfold Cert.Spec.rowMax
  exact congrArg (fun f : Fin 15 → EReal => (Finset.univ : Finset (Fin 15)).fold max ⊥ f) e

theorem attn_apply (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (j : Fin 15) :
    val_main_v23 (F := Ideal) x0 x1 x3 x4 x5 (ix2 0 j)
      = Cert.Spec.attnWeights (fun k => val_main_v6 (F := Ideal) x0 x3 (ix2 0 k)) (fun k => x1 (ix3 0 0 k)) (fun j k => x4 (ix2 j k)) (fun j => x5 (ix1 j)) j := by

  have hM : ∀ i : S1.Idx, val_main_v15 (F := Ideal) x0 x1 x3 x4 x5 i
      = Cert.Spec.rowMax (Cert.Spec.affine (Cert.Spec.cat (fun k => val_main_v6 (F := Ideal) x0 x3 (ix2 0 k)) (fun k => x1 (ix3 0 0 k))) (fun j k => x4 (ix2 j k)) (fun j => x5 (ix1 j))) := fun i => by
    rw [val_main_v15_apply, val_main_v14_apply, val_main_cst_1_apply, Ideal.maximumf_def, Ideal.ofBits_def, negInf,
      max_bot_left]
    unfold val_main_v13
    rw [rowMax_apply]
    exact congrArg Cert.Spec.rowMax (funext fun k => logit_apply x0 x1 x3 x4 x5 k)

  have hE : ∀ k : Fin 15, val_main_v19 (F := Ideal) x0 x1 x3 x4 x5 (ix2 0 k)
      = Ideal.exp (Cert.Spec.affine (Cert.Spec.cat (fun k => val_main_v6 (F := Ideal) x0 x3 (ix2 0 k)) (fun k => x1 (ix3 0 0 k))) (fun j k => x4 (ix2 j k)) (fun j => x5 (ix1 j)) k
          - Cert.Spec.rowMax (Cert.Spec.affine (Cert.Spec.cat (fun k => val_main_v6 (F := Ideal) x0 x3 (ix2 0 k)) (fun k => x1 (ix3 0 0 k))) (fun j k => x4 (ix2 j k)) (fun j => x5 (ix1 j)))) := fun k => by
    rw [val_main_v19_apply, Ideal.hostUnary_exp_def, val_main_v18_apply, Ideal.subf_def, logit_apply,
      val_main_v17_apply, val_main_v16_apply, hM]

  have hS : ∀ i : S1.Idx, val_main_v20 (F := Ideal) x0 x1 x3 x4 x5 i
      = ∑ k : Fin 15, Ideal.exp (Cert.Spec.affine (Cert.Spec.cat (fun k => val_main_v6 (F := Ideal) x0 x3 (ix2 0 k)) (fun k => x1 (ix3 0 0 k))) (fun j k => x4 (ix2 j k)) (fun j => x5 (ix1 j)) k
          - Cert.Spec.rowMax (Cert.Spec.affine (Cert.Spec.cat (fun k => val_main_v6 (F := Ideal) x0 x3 (ix2 0 k)) (fun k => x1 (ix3 0 0 k))) (fun j k => x4 (ix2 j k)) (fun j => x5 (ix1 j)))) := fun i => by
    rw [val_main_v20_apply, val_main_cst_2_apply, Ideal.ofBits_def, Ideal.ofBits_zero_f32, zero_add]
    refine Finset.sum_congr rfl fun k _ => ?_
    rw [idx20, hE]
  rw [val_main_v23_apply, Ideal.hostDivf_def, hE, val_main_v22_apply, val_main_v21_apply, hS]
  rfl

theorem context_apply (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (n : Fin 1024) :
    val_main_v24 (F := Ideal) x0 x1 x2 x3 x4 x5 (ix2 0 n)
      = Cert.Spec.context (Cert.Spec.attnWeights (fun k => val_main_v6 (F := Ideal) x0 x3 (ix2 0 k)) (fun k => x1 (ix3 0 0 k)) (fun j k => x4 (ix2 j k)) (fun j => x5 (ix1 j))) (fun j n => x2 (ix2 j n)) n := by
  rw [val_main_v24_apply]
  unfold Cert.Spec.context
  refine Finset.sum_congr rfl fun j _ => ?_
  rw [lidx24, ridx24, attn_apply]

theorem embedContext_apply (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (k : Fin 2048) :
    val_main_v25 (F := Ideal) x0 x1 x2 x3 x4 x5 (ix2 0 k)
      = Cert.Spec.cat (fun k => val_main_v6 (F := Ideal) x0 x3 (ix2 0 k)) (Cert.Spec.context (Cert.Spec.attnWeights (fun k => val_main_v6 (F := Ideal) x0 x3 (ix2 0 k)) (fun k => x1 (ix3 0 0 k)) (fun j k => x4 (ix2 j k)) (fun j => x5 (ix1 j))) (fun j n => x2 (ix2 j n))) k := by
  unfold val_main_v25
  refine (concat_apply _ _ k).trans ?_
  have e : (fun m : Fin 1024 => val_main_v24 (F := Ideal) x0 x1 x2 x3 x4 x5 (ix2 0 m))
      = Cert.Spec.context (Cert.Spec.attnWeights (fun k => val_main_v6 (F := Ideal) x0 x3 (ix2 0 k)) (fun k => x1 (ix3 0 0 k)) (fun j k => x4 (ix2 j k)) (fun j => x5 (ix1 j))) (fun j n => x2 (ix2 j n)) :=
    funext fun m => context_apply x0 x1 x2 x3 x4 x5 m
  rw [e]

theorem comb_apply (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (n : Fin 1024) :
    val_main_v30 (F := Ideal) x0 x1 x2 x3 x4 x5 x6 x7 (ix2 0 n)
      = Cert.Spec.combined (fun k => val_main_v6 (F := Ideal) x0 x3 (ix2 0 k)) (fun k => x1 (ix3 0 0 k)) (fun j n => x2 (ix2 j n)) (fun j k => x4 (ix2 j k)) (fun j => x5 (ix1 j))
          (fun n k => x6 (ix2 n k)) (fun n => x7 (ix1 n)) n := by
  rw [val_main_v30_apply, val_main_call0_v0_apply, val_main_call0_cst_apply, Ideal.maximumf_def, Ideal.ofBits_def,
    val_main_v29_apply, val_main_v27_apply, val_main_v28_apply, Ideal.addf_def]
  unfold Cert.Spec.combined Cert.Spec.affine
  refine congrArg (max · _) (congrArg₂ (· + ·) (Finset.sum_congr rfl fun k _ => ?_) (congrArg x7 (idx28 n)))
  rw [lidx27, val_main_v26_apply, ridx27, embedContext_apply]

end Cert.ReferenceIdeal.RefVal

end
-- ==== Proof.RefGru.lean ====
import proofs.«411179_j26594437497554_3_alg».proof.Proof.ReadP
import proofs.«411179_j26594437497554_3_alg».proof.Proof.Spec
import Idealize.ShloMosaic.Lib.ValueIdx
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx

theorem lidx68 (v : Fin 50257) (k : Fin 1024) : lidx_main_v68 (ix2 (0 : Fin 1) v) k = ix2 (0 : Fin 1) k :=
  funext fun a => match a with | ⟨0, _⟩ => rfl | ⟨1, _⟩ => rfl

theorem ridx68 (v : Fin 50257) (k : Fin 1024) : ridx_main_v68 (ix2 (0 : Fin 1) v) k = ix2 k v :=
  funext fun a => match a with | ⟨0, _⟩ => rfl | ⟨1, _⟩ => rfl

theorem idx67 (k : Fin 1024) (v : Fin 50257) : idx_main_v67 (ix2 k v) = ix2 v k :=
  funext fun a => match a with | ⟨0, _⟩ => rfl | ⟨1, _⟩ => rfl

theorem idx69 (v : Fin 50257) : idx_main_v69 (ix2 (0 : Fin 1) v) = ix1 v :=
  funext fun a => match a with | ⟨0, _⟩ => rfl

theorem logits_apply (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) (v : Fin 50257) :
    val_main_v70 (F := Ideal) x0 x1 x2 x3 x4 x5 x6 x7 x8 x9 x10 x11 x12 x13 (ix2 0 v)
      = Cert.Spec.logits (fun k => val_main_v66 (F := Ideal) x0 x1 x2 x3 x4 x5 x6 x7 x8 x9 x10 x11 (ix2 0 k))
          (fun v k => x12 (ix2 v k)) (fun v => x13 (ix1 v)) v := by
  rw [val_main_v70_apply, val_main_v68_apply, val_main_v69_apply]
  simp only [val_main_v67_apply, lidx68, ridx68, idx67, idx69, Ideal.addf_def]
  rfl

theorem lidx32 (r : Fin 3072) (k : Fin 1024) : lidx_main_v32 (ix2 (0 : Fin 1) r) k = ix2 (0 : Fin 1) k :=
  funext fun a => match a with | ⟨0, _⟩ => rfl | ⟨1, _⟩ => rfl

theorem ridx32 (r : Fin 3072) (k : Fin 1024) : ridx_main_v32 (ix2 (0 : Fin 1) r) k = ix2 k r :=
  funext fun a => match a with | ⟨0, _⟩ => rfl | ⟨1, _⟩ => rfl

theorem idx31 (k : Fin 1024) (r : Fin 3072) : idx_main_v31 (ix2 k r) = ix2 r k :=
  funext fun a => match a with | ⟨0, _⟩ => rfl | ⟨1, _⟩ => rfl

theorem idx33 (r : Fin 3072) : idx_main_v33 (ix2 (0 : Fin 1) r) = ix1 r :=
  funext fun a => match a with | ⟨0, _⟩ => rfl

theorem lidx36 (r : Fin 3072) (k : Fin 1024) : lidx_main_v36 (ix2 (0 : Fin 1) r) k = ix2 (0 : Fin 1) k :=
  funext fun a => match a with | ⟨0, _⟩ => rfl | ⟨1, _⟩ => rfl

theorem ridx36 (r : Fin 3072) (k : Fin 1024) : ridx_main_v36 (ix2 (0 : Fin 1) r) k = ix2 k r :=
  funext fun a => match a with | ⟨0, _⟩ => rfl | ⟨1, _⟩ => rfl

theorem idx35 (k : Fin 1024) (r : Fin 3072) : idx_main_v35 (ix2 k r) = ix2 r k :=
  funext fun a => match a with | ⟨0, _⟩ => rfl | ⟨1, _⟩ => rfl

theorem idx37 (r : Fin 3072) : idx_main_v37 (ix2 (0 : Fin 1) r) = ix1 r :=
  funext fun a => match a with | ⟨0, _⟩ => rfl

theorem hidden_idx (k : Fin 1024) : idx_main_v7 (ix2 (0 : Fin 1) k) = ix3 (0 : Fin 1) (0 : Fin 1) k :=
  funext fun a => match a with
    | ⟨0, _⟩ => rfl
    | ⟨1, _⟩ => rfl
    | ⟨2, _⟩ => Fin.ext (by
        show ((0 : Fin 1).val * 1024 + k.val) % 1024 = k.val
        have hk : k.val < 1024 := k.isLt
        show (0 * 1024 + k.val) % 1024 = k.val
        omega)

theorem gi_apply (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 : (⟨S3072x1024, .f32⟩ : BufTy).Contents (Elt Ideal)) (x10 : (⟨S3072, .f32⟩ : BufTy).Contents (Elt Ideal)) (r : Fin 3072) :
    val_main_v34 (F := Ideal) x0 x1 x2 x3 x4 x5 x6 x7 x8 x10 (ix2 0 r)
      = Cert.Spec.affine (fun k => val_main_v30 (F := Ideal) x0 x1 x2 x3 x4 x5 x6 x7 (ix2 0 k))
          (fun r k => x8 (ix2 r k)) (fun r => x10 (ix1 r)) r := by
  rw [val_main_v34_apply, val_main_v32_apply, val_main_v33_apply]
  simp only [val_main_v31_apply, lidx32, ridx32, idx31, idx33, Ideal.addf_def]
  rfl

theorem gh_apply (x1 : (⟨S1x1x1024, .f32⟩ : BufTy).Contents (Elt Ideal)) (x9 : (⟨S3072x1024, .f32⟩ : BufTy).Contents (Elt Ideal)) (x11 : (⟨S3072, .f32⟩ : BufTy).Contents (Elt Ideal)) (r : Fin 3072) :
    val_main_v38 (F := Ideal) x1 x9 x11 (ix2 0 r)
      = Cert.Spec.affine (fun k => x1 (ix3 0 0 k)) (fun r k => x9 (ix2 r k)) (fun r => x11 (ix1 r)) r := by
  rw [val_main_v38_apply, val_main_v36_apply, val_main_v37_apply]
  simp only [val_main_v35_apply, val_main_v7_apply, lidx36, ridx36, idx35, idx37, hidden_idx, Ideal.addf_def]
  rfl

theorem idx39 (n : Fin 1024) :
    idx_main_v39 (ix2 (0 : Fin 1) n) = ix2 (0 : Fin 1) (⟨n.val, by omega⟩ : Fin 3072) :=
  funext fun a => match a with | ⟨0, _⟩ => rfl | ⟨1, _⟩ => rfl

theorem idx40 (n : Fin 1024) :
    idx_main_v40 (ix2 (0 : Fin 1) n) = ix2 (0 : Fin 1) (⟨n.val + 1024, by omega⟩ : Fin 3072) :=
  funext fun a => match a with
    | ⟨0, _⟩ => rfl
    | ⟨1, _⟩ => Fin.ext (by show 1024 + n.val = n.val + 1024; omega)

theorem idx41 (n : Fin 1024) :
    idx_main_v41 (ix2 (0 : Fin 1) n) = ix2 (0 : Fin 1) (⟨n.val + 2048, by omega⟩ : Fin 3072) :=
  funext fun a => match a with
    | ⟨0, _⟩ => rfl
    | ⟨1, _⟩ => Fin.ext (by show 2048 + n.val = n.val + 2048; omega)

theorem idx42 (n : Fin 1024) :
    idx_main_v42 (ix2 (0 : Fin 1) n) = ix2 (0 : Fin 1) (⟨n.val, by omega⟩ : Fin 3072) :=
  funext fun a => match a with | ⟨0, _⟩ => rfl | ⟨1, _⟩ => rfl

theorem idx43 (n : Fin 1024) :
    idx_main_v43 (ix2 (0 : Fin 1) n) = ix2 (0 : Fin 1) (⟨n.val + 1024, by omega⟩ : Fin 3072) :=
  funext fun a => match a with
    | ⟨0, _⟩ => rfl
    | ⟨1, _⟩ => Fin.ext (by show 1024 + n.val = n.val + 1024; omega)

theorem idx44 (n : Fin 1024) :
    idx_main_v44 (ix2 (0 : Fin 1) n) = ix2 (0 : Fin 1) (⟨n.val + 2048, by omega⟩ : Fin 3072) :=
  funext fun a => match a with
    | ⟨0, _⟩ => rfl
    | ⟨1, _⟩ => Fin.ext (by show 2048 + n.val = n.val + 2048; omega)

theorem gru_apply (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (n : Fin 1024) :
    val_main_v66 (F := Ideal) x0 x1 x2 x3 x4 x5 x6 x7 x8 x9 x10 x11 (ix2 0 n)
      = Cert.Spec.gru (fun k => val_main_v30 (F := Ideal) x0 x1 x2 x3 x4 x5 x6 x7 (ix2 0 k)) (fun k => x1 (ix3 0 0 k))
          (fun r k => x8 (ix2 r k)) (fun r k => x9 (ix2 r k)) (fun r => x10 (ix1 r)) (fun r => x11 (ix1 r)) n := by
  simp only [val_main_v66_apply, val_main_v65_apply, val_main_v64_apply, val_main_v63_apply, val_main_v62_apply,
    val_main_cst_7_apply, val_main_v61_apply, val_main_v60_apply, val_main_v59_apply, val_main_v58_apply,
    val_main_v57_apply, val_main_cst_6_apply, val_main_v56_apply, val_main_v55_apply, val_main_cst_5_apply,
    val_main_v54_apply, val_main_v53_apply, val_main_v52_apply, val_main_v51_apply, val_main_v50_apply,
    val_main_cst_4_apply, val_main_v49_apply, val_main_v48_apply, val_main_cst_3_apply, val_main_v47_apply,
    val_main_v46_apply, val_main_v45_apply, val_main_v44_apply, val_main_v43_apply, val_main_v42_apply,
    val_main_v41_apply, val_main_v40_apply, val_main_v39_apply, val_main_v7_apply]
  simp only [idx39, idx40, idx41, idx42, idx43, idx44, hidden_idx, gi_apply, gh_apply]
  unfold Cert.Spec.gru
  simp only [Ideal.addf_def, Ideal.subf_def, Ideal.mulf_def, Ideal.hostDivf_def, Ideal.hostNegf_def, Ideal.negf_def,
    Ideal.hostUnary_exp_def, Ideal.hostUnary_tanh_def, Ideal.ofBits_def, Ideal.ofBits_one_f32, Ideal.logistic]

end Cert.ReferenceIdeal.RefVal

end
-- ==== Proof.RefAll.lean ====
import proofs.«411179_j26594437497554_3_alg».proof.Proof.RefAttn
import proofs.«411179_j26594437497554_3_alg».proof.Proof.RefGru

noncomputable section

namespace Cert.ReferenceIdeal.RefVal

open Cert.ReferenceIdeal Cert.ReferenceIdeal.Gen Cert.ReferenceIdeal.Read Idealize.ShloMosaic Idealize.ShloMosaic.ValueIdx

theorem ref_attn (x0 : (⟨S1, .i32⟩ : BufTy).Contents (Elt Ideal)) (x1 : (⟨S1x1x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (j : Fin 15) :
    val_main_v23 (F := Ideal) x0 x1 x3 x4 x5 (ix2 0 j)
      = Cert.Spec.attnWeights (fun k => val_main_v6 (F := Ideal) x0 x3 (ix2 0 k)) (fun k => x1 (ix3 0 0 k))
          (fun j k => x4 (ix2 j k)) (fun j => x5 (ix1 j)) j :=
  attn_apply x0 x1 x3 x4 x5 j

theorem ref_hidden (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (n : Fin 1024) :
    val_main_v66 (F := Ideal) x0 x1 x2 x3 x4 x5 x6 x7 x8 x9 x10 x11 (ix2 0 n)
      = Cert.Spec.gru
          (Cert.Spec.combined (fun k => val_main_v6 (F := Ideal) x0 x3 (ix2 0 k)) (fun k => x1 (ix3 0 0 k)) (fun j n => x2 (ix2 j n))
            (fun j k => x4 (ix2 j k)) (fun j => x5 (ix1 j)) (fun n k => x6 (ix2 n k)) (fun n => x7 (ix1 n)))
          (fun k => x1 (ix3 0 0 k)) (fun r k => x8 (ix2 r k)) (fun r k => x9 (ix2 r k)) (fun r => x10 (ix1 r)) (fun r => x11 (ix1 r)) n := by
  have hx : (fun k : Fin 1024 => val_main_v30 (F := Ideal) x0 x1 x2 x3 x4 x5 x6 x7 (ix2 0 k))
      = (Cert.Spec.combined (fun k => val_main_v6 (F := Ideal) x0 x3 (ix2 0 k)) (fun k => x1 (ix3 0 0 k)) (fun j n => x2 (ix2 j n))
            (fun j k => x4 (ix2 j k)) (fun j => x5 (ix1 j)) (fun n k => x6 (ix2 n k)) (fun n => x7 (ix1 n))) :=
    funext fun k => comb_apply x0 x1 x2 x3 x4 x5 x6 x7 k
  rw [gru_apply, hx]

theorem ref_logit (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) (v : Fin 50257) :
    val_main_v70 (F := Ideal) x0 x1 x2 x3 x4 x5 x6 x7 x8 x9 x10 x11 x12 x13 (ix2 0 v)
      = Cert.Spec.logits
          (Cert.Spec.gru
          (Cert.Spec.combined (fun k => val_main_v6 (F := Ideal) x0 x3 (ix2 0 k)) (fun k => x1 (ix3 0 0 k)) (fun j n => x2 (ix2 j n))
            (fun j k => x4 (ix2 j k)) (fun j => x5 (ix1 j)) (fun n k => x6 (ix2 n k)) (fun n => x7 (ix1 n)))
          (fun k => x1 (ix3 0 0 k)) (fun r k => x8 (ix2 r k)) (fun r k => x9 (ix2 r k)) (fun r => x10 (ix1 r)) (fun r => x11 (ix1 r)))
          (fun v k => x12 (ix2 v k)) (fun v => x13 (ix1 v)) v := by
  have hh : (fun k : Fin 1024 => val_main_v66 (F := Ideal) x0 x1 x2 x3 x4 x5 x6 x7 x8 x9 x10 x11 (ix2 0 k))
      = (Cert.Spec.gru
          (Cert.Spec.combined (fun k => val_main_v6 (F := Ideal) x0 x3 (ix2 0 k)) (fun k => x1 (ix3 0 0 k)) (fun j n => x2 (ix2 j n))
            (fun j k => x4 (ix2 j k)) (fun j => x5 (ix1 j)) (fun n k => x6 (ix2 n k)) (fun n => x7 (ix1 n)))
          (fun k => x1 (ix3 0 0 k)) (fun r k => x8 (ix2 r k)) (fun r k => x9 (ix2 r k)) (fun r => x10 (ix1 r)) (fun r => x11 (ix1 r))) :=
    funext fun k => ref_hidden x0 x1 x2 x3 x4 x5 x6 x7 x8 x9 x10 x11 k
  rw [logits_apply, hh]

end Cert.ReferenceIdeal.RefVal

end
-- ==== Proof.TailR.lean ====
import proofs.«411179_j26594437497554_3_alg».proof.Proof.TailK
import proofs.«411179_j26594437497554_3_alg».proof.Proof.ReadP

noncomputable section

namespace Cert.ReferenceIdeal.TailVal

open Cert.ReferenceIdeal Cert.ReferenceIdeal.Gen Cert.ReferenceIdeal.Read Idealize.ShloMosaic

theorem ref_logits (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) (x12 : (⟨S50257x1024, .f32⟩ : BufTy).Contents (Elt Ideal)) (x13 : (⟨S50257, .f32⟩ : BufTy).Contents (Elt Ideal)) :
    val_main_v71 (F := Ideal) x0 x1 x2 x3 x4 x5 x6 x7 x8 x9 x10 x11 x12 x13 = Cert.KernelIdeal.Tail.logSoftmaxRow (val_main_v70 (F := Ideal) x0 x1 x2 x3 x4 x5 x6 x7 x8 x9 x10 x11 x12 x13) := by
  unfold val_main_v71 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst Cert.KernelIdeal.Tail.logSoftmaxRow Cert.KernelIdeal.Tail.logSoftmaxRowAt Cert.KernelIdeal.Tail.shiftedRowAt
  generalize val_main_v70 (F := Ideal) x0 x1 x2 x3 x4 x5 x6 x7 x8 x9 x10 x11 x12 x13 = y
  rfl

theorem ref_hidden (x0 : (⟨S1, .i32⟩ : BufTy).Contents (Elt Ideal)) (x1 : (⟨S1x1x1024, .f32⟩ : BufTy).Contents (Elt Ideal)) (x2 : (⟨S15x1024, .f32⟩ : BufTy).Contents (Elt Ideal)) (x3 : (⟨S50257x1024, .f32⟩ : BufTy).Contents (Elt Ideal)) (x4 : (⟨S15x2048, .f32⟩ : BufTy).Contents (Elt Ideal)) (x5 : (⟨S15, .f32⟩ : BufTy).Contents (Elt Ideal)) (x6 : (⟨S1024x2048, .f32⟩ : BufTy).Contents (Elt Ideal)) (x7 : (⟨S1024, .f32⟩ : BufTy).Contents (Elt Ideal)) (x8 x9 : (⟨S3072x1024, .f32⟩ : BufTy).Contents (Elt Ideal)) (x10 x11 : (⟨S3072, .f32⟩ : BufTy).Contents (Elt Ideal)) :
    val_main_v72 (F := Ideal) x0 x1 x2 x3 x4 x5 x6 x7 x8 x9 x10 x11 = Cert.KernelIdeal.Tail.rerank (val_main_v66 (F := Ideal) x0 x1 x2 x3 x4 x5 x6 x7 x8 x9 x10 x11) := by
  unfold val_main_v72 Cert.KernelIdeal.Tail.rerank
  generalize val_main_v66 (F := Ideal) x0 x1 x2 x3 x4 x5 x6 x7 x8 x9 x10 x11 = y
  rfl

end Cert.ReferenceIdeal.TailVal

end
-- ==== Proof.Bridge.lean ====
import proofs.«411179_j26594437497554_3_alg».proof.Proof.KernelVal
import proofs.«411179_j26594437497554_3_alg».proof.Proof.RefAll
import proofs.«411179_j26594437497554_3_alg».proof.Proof.TailR

set_option maxRecDepth 16384

noncomputable section

namespace Cert.Bridge

open Idealize.ShloMosaic Idealize.ShloMosaic.TcCoe Idealize.ShloMosaic.ValueIdx Idealize.SL.Sem
open Cert.KernelIdeal.Hand
open Cert.KernelIdeal (nD τ sig main_arg0 main_arg1 main_arg2 main_arg3 main_arg4 main_arg5 main_arg6 main_arg7 main_arg8 main_arg9
  main_arg10 main_arg11 main_arg12 main_arg13)

theorem row_idx {n : Nat} (i : (⟨2, ![1, n]⟩ : Shape).Idx) : ∃ q : Fin n, i = ix2 (0 : Fin 1) q :=
  ⟨i 1, funext fun a => match a with
    | ⟨0, _⟩ => Fin.ext (by have h := idx2_lt0 i; show (i 0).val = 0; omega)
    | ⟨1, _⟩ => rfl⟩

theorem gathered_eq (x0 : IVec Cert.KernelIdeal.S1 32) (x3 : FVec Ideal Cert.KernelIdeal.S50257x1024 .f32) :
    Cert.KernelIdeal.Embed.gatheredRow x0 x3 = Cert.ReferenceIdeal.Read.val_main_v6 (F := Ideal) x0 x3 := rfl

variable (m : (ℓ : Loc nD τ sig) → Buf (Elt Ideal) ℓ)

-- What an argument array holds at launch.
abbrev arg (c : Dev nD) (r : Ref sig .tc) := m ((c.tc : Thread nD τ).loc r)

theorem eRow_eq (c : Dev nD) :
    eRow m c = fun k => Cert.ReferenceIdeal.Read.val_main_v6 (F := Ideal) (arg m c main_arg0) (arg m c main_arg3) (ix2 0 k) :=
  funext fun k => congrFun (gathered_eq _ _) (ix2 0 k)

variable (hpre : Cert.Pre_KernelIdeal m)
include hpre

set_option maxHeartbeats 1000000 in

theorem attn_eq (c : Dev nD) :
    W7 m c Cert.KernelIdeal.main_v7_0
      = Cert.ReferenceIdeal.Read.val_main_v23 (F := Ideal) (arg m c main_arg0) (arg m c main_arg1) (arg m c main_arg3) (arg m c main_arg4) (arg m c main_arg5) := by
  funext i
  obtain ⟨j, rfl⟩ := row_idx i
  refine (W7_attn m hpre c j).trans (Eq.trans ?_ (Cert.ReferenceIdeal.RefVal.ref_attn _ _ _ _ _ j).symm)
  rw [eRow_eq m c]

set_option maxHeartbeats 1000000 in

theorem hidden_eq (c : Dev nD) :
    W4 m c Cert.KernelIdeal.main_v8
      = Cert.ReferenceIdeal.Read.val_main_v66 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  funext i
  obtain ⟨n, rfl⟩ := row_idx i
  refine (W4_hidden m hpre c n).trans (Eq.trans ?_ (Cert.ReferenceIdeal.RefVal.ref_hidden _ _ _ _ _ _ _ _ _ _ _ _ n).symm)
  unfold newRow xRow
  rw [eRow_eq m c]

set_option maxHeartbeats 1000000 in

theorem logits_eq (c : Dev nD) :
    W5 m c Cert.KernelIdeal.main_v9
      = Cert.ReferenceIdeal.Read.val_main_v70 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  funext i
  obtain ⟨v, rfl⟩ := row_idx i
  refine (W5_logits m hpre c v).trans (Eq.trans ?_ (Cert.ReferenceIdeal.RefVal.ref_logit _ _ _ _ _ _ _ _ _ _ _ _ _ _ v).symm)
  unfold newRow xRow
  rw [eRow_eq m c]

end Cert.Bridge

end
-- ==== Proof.lean ====
import proofs.«411179_j26594437497554_3_alg».proof.Defs
import proofs.«411179_j26594437497554_3_alg».proof.Proof.Gen.Kernel
import proofs.«411179_j26594437497554_3_alg».proof.Proof.Gen.KernelIdeal
import proofs.«411179_j26594437497554_3_alg».proof.Proof.Gen.ReferenceIdeal
import proofs.«411179_j26594437497554_3_alg».proof.Proof.RefRun
import proofs.«411179_j26594437497554_3_alg».proof.Proof.Gen.Pre_finite_inputs
import proofs.«411179_j26594437497554_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Hand

-- The two kernel programs are one text under two names: their body tables unfold to the same term.
set_option maxHeartbeats 1000000 in
theorem defs_eq {F : FTy → Type} [FloatOps F] : Cert.Kernel.defs (F := F) = Cert.KernelIdeal.defs (F := F) := by
  have h₀ : Cert.Kernel.defs₀ (F := F) = Cert.KernelIdeal.defs₀ (F := F) :=
    congrArg Defs.onTc (funext fun l => funext fun a =>
      match l, a with
      | 0, (_, _) => rfl
      | 1, (_, _) => rfl
      | 2, (_, _) => rfl
      | ⟨_ + 3, h⟩, _ => absurd h (Nat.not_lt.2 (Nat.le_add_left _ _)))
  unfold Cert.Kernel.defs; rw [h₀]; rfl

-- So the first program's frame is the second's, which holds at every float instance.
set_option maxHeartbeats 1000000 in
theorem frame_p : Cert.frame_Kernel := fun m ρ _ => by
  rw [defs_eq, show Cert.Kernel.main (F := Bits) = Cert.KernelIdeal.main from rfl]
  exact frame_args m ρ

theorem frame_pi : Cert.frame_KernelIdeal := fun m ρ _ => frame_args m ρ

theorem frame_ri : Cert.frame_ReferenceIdeal := fun m ρ _ =>
  (θ_run Cert.ReferenceIdeal.defs _ _).mono (fun _ h c => (h c).2.2.2) (Cert.ReferenceIdeal.RunVal.run m ρ)

theorem preserves : Cert.preserves_Kernel_KernelIdeal := trivial

-- Both runs name their results, and each pair of results is one function of the arguments.
set_option maxHeartbeats 4000000 in
theorem algebraic : Cert.algebraic_KernelIdeal_ReferenceIdeal := by
  intro m g m' g' hpre hagree
  refine ⟨fun c => Cert.ReferenceIdeal.RunVal.out0 m' c, fun c => Cert.ReferenceIdeal.RunVal.out1 m' c,
    fun c => Cert.ReferenceIdeal.RunVal.out2 m' c, ?_, Cert.ReferenceIdeal.RunVal.run m' g'⟩
  refine (θ_run Cert.KernelIdeal.defs _ _).mono (fun r h c => ?_) (run_all m g k2Local_ideal)
  have hb := h c
  obtain ⟨a0, a1, a2, a3, a4, a5, a6, a7, a8, a9, a10, a11, a12, a13⟩ := hagree c
  have hA := List.forall_iff_forall_mem.mpr fun a ha =>
    (hb _ (mem_uc a (args_clear a ha).2)).trans (W7_arg m c a ha)
  refine ⟨?_, ?_, ?_, hA⟩
  · refine (hb _ (mem_uc Cert.KernelIdeal.main_v10 (by decide))).trans ?_
    show _ = Cert.ReferenceIdeal.RunVal.out0 m' c
    unfold Cert.ReferenceIdeal.RunVal.out0
    rw [W7_logprobs, Cert.Bridge.logits_eq m hpre c,
      Cert.ReferenceIdeal.TailVal.ref_logits, a0, a1, a2, a3, a4, a5, a6, a7, a8, a9, a10, a11, a12, a13]
  · refine (hb _ (mem_uc Cert.KernelIdeal.main_v11 (by decide))).trans ?_
    show _ = Cert.ReferenceIdeal.RunVal.out1 m' c
    unfold Cert.ReferenceIdeal.RunVal.out1
    rw [W7_hidden, Cert.Bridge.hidden_eq m hpre c,
      Cert.ReferenceIdeal.TailVal.ref_hidden, a0, a1, a2, a3, a4, a5, a6, a7, a8, a9, a10, a11]
  · refine (hb _ (mem_uc Cert.KernelIdeal.main_v7_0 (by decide))).trans ?_
    show _ = Cert.ReferenceIdeal.RunVal.out2 m' c
    unfold Cert.ReferenceIdeal.RunVal.out2
    rw [Cert.Bridge.attn_eq m hpre c, a0, a1, a3, a4, a5]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
